-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v25)) (v3 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x1024 : Shape := ⟨2, ![8192, 1024]⟩
abbrev S512x1024 : Shape := ⟨2, ![512, 1024]⟩
abbrev S256x512 : Shape := ⟨2, ![256, 512]⟩
abbrev S64x256 : Shape := ⟨2, ![64, 256]⟩
abbrev S192x192 : Shape := ⟨2, ![192, 192]⟩
abbrev S192 : Shape := ⟨1, ![192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S256x512 : S_.BroadcastsInDim S256x512 (![] : Fin 0 → Fin S256x512.rank)
  reducesTo_S256x512_S_d0_1 : S256x512.ReducesTo [0, 1] S_
  bcast_S_S64x256 : S_.BroadcastsInDim S64x256 (![] : Fin 0 → Fin S64x256.rank)
  reducesTo_S64x256_S_d0_1 : S64x256.ReducesTo [0, 1] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_

variable [Facts]

def fn_part2 {F : FTy → Type} [FloatOps F] (main_arg7 : FVec F S192x192 .f32) (main_arg8 : FVec F S192 .f32) (main_v33 : IVec S_ 1) : IVec S_ 1 :=
  let main_v34 : FVec F S192x192 .f32 := Host.absf main_arg7
  let main_cst_12 : FVec F S_ .f32 := constant S_ .f32 0x7F800000#32
  let main_v35 : FVec F S192x192 .f32 := broadcastInDim S192x192 ![] bcast_S_S192x192 main_cst_12
  let main_v36 : IVec S192x192 1 := cmpf .olt main_v34 main_v35
  let main_c_13 : IVec S_ 1 := constantI S_ 1 1#1
  let main_v37 : IVec S_ 1 := (fun x v => Host.reduce IntOp.andi x v reducesTo_S192x192_S_d0_1 h_S_) main_v36 main_c_13
  let main_v38 : IVec S_ 1 := andi main_v33 main_v37
  let main_v39 : FVec F S192 .f32 := Host.absf main_arg8
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  main_v43

def fn_part1 {F : FTy → Type} [FloatOps F] (main_arg4 : FVec F S64x256 .f32) (main_arg5 : FVec F S64x256 .f32) (main_arg6 : FVec F S64x256 .f32) (main_arg7 : FVec F S192x192 .f32) (main_arg8 : FVec F S192 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64x256 .f32 := Host.absf main_arg5
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  let main_v29 : FVec F S64x256 .f32 := Host.absf main_arg6
  let main_cst_10 : FVec F S_ .f32 := constant S_ .f32 0x7F800000#32
  let main_v30 : FVec F S64x256 .f32 := broadcastInDim S64x256 ![] bcast_S_S64x256 main_cst_10
  let main_v31 : IVec S64x256 1 := cmpf .olt main_v29 main_v30
  let main_c_11 : IVec S_ 1 := constantI S_ 1 1#1
  let main_v32 : IVec S_ 1 := (fun x v => Host.reduce IntOp.andi x v reducesTo_S64x256_S_d0_1 h_S_) main_v31 main_c_11
  let main_v33 : IVec S_ 1 := andi main_v28 main_v32
  fn_part2 (F := F) main_arg7 main_arg8 main_v33

def fn {F : FTy → Type} [FloatOps F] (main_arg0 : FVec F S8192x8192 .f32) (main_arg1 : FVec F S8192x1024 .f32) (main_arg2 : FVec F S512x1024 .f32) (main_arg3 : FVec F S256x512 .f32) (main_arg4 : FVec F S64x256 .f32) (main_arg5 : FVec F S64x256 .f32) (main_arg6 : FVec F S64x256 .f32) (main_arg7 : FVec F S192x192 .f32) (main_arg8 : FVec F S192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_arg7 main_arg8 main_v13 main_v16
-- ==== Kernel.lean ====
abbrev S8192x8192 : Shape := ⟨2, ![8192, 8192]⟩
abbrev S8192x1024 : Shape := ⟨2, ![8192, 1024]⟩
abbrev S512x1024 : Shape := ⟨2, ![512, 1024]⟩
abbrev S256x512 : Shape := ⟨2, ![256, 512]⟩
abbrev S64x256 : Shape := ⟨2, ![64, 256]⟩
abbrev S192x192 : Shape := ⟨2, ![192, 192]⟩
abbrev S192 : Shape := ⟨1, ![192]⟩
abbrev S192x256 : Shape := ⟨2, ![192, 256]⟩
abbrev S1x192 : Shape := ⟨2, ![1, 192]⟩
abbrev S_ : Shape := ⟨0, ![]⟩
abbrev S1x512 : Shape := ⟨2, ![1, 512]⟩
abbrev S8192x512 : Shape := ⟨2, ![8192, 512]⟩
abbrev S1024x1024 : Shape := ⟨2, ![1024, 1024]⟩
abbrev S1024x512 : Shape := ⟨2, ![1024, 512]⟩
abbrev S1024x2048 : Shape := ⟨2, ![1024, 2048]⟩
abbrev S2048x512 : Shape := ⟨2, ![2048, 512]⟩
abbrev S1x256 : Shape := ⟨2, ![1, 256]⟩
abbrev S8192x256 : Shape := ⟨2, ![8192, 256]⟩
abbrev S1024x256 : Shape := ⟨2, ![1024, 256]⟩
abbrev S512x256 : Shape := ⟨2, ![512, 256]⟩
abbrev S2048x256 : Shape := ⟨2, ![2048, 256]⟩
abbrev S8192x192 : Shape := ⟨2, ![8192, 192]⟩
abbrev S1024x192 : Shape := ⟨2, ![1024, 192]⟩
abbrev S256x192 : Shape := ⟨2, ![256, 192]⟩
abbrev S2048x192 : Shape := ⟨2, ![2048, 192]⟩
abbrev S2048x1024 : Shape := ⟨2, ![2048, 1024]⟩
abbrev S192x1024 : Shape := ⟨2, ![192, 1024]⟩

abbrev nBuf : Space → Nat
  | .hbm => 42
  | .vmem => 51
  | .smem => 0
  | _ => 0

abbrev bufTy : (tb : Table) → Fin (tcTables nBuf tb) → BufTy
  | .hbm, ⟨0, _⟩ => ⟨S8192x8192, .f32⟩
  | .hbm, ⟨1, _⟩ => ⟨S8192x1024, .f32⟩
  | .hbm, ⟨2, _⟩ => ⟨S512x1024, .f32⟩
  | .hbm, ⟨3, _⟩ => ⟨S256x512, .f32⟩
  | .hbm, ⟨4, _⟩ => ⟨S64x256, .f32⟩
  | .hbm, ⟨5, _⟩ => ⟨S64x256, .f32⟩
  | .hbm, ⟨6, _⟩ => ⟨S64x256, .f32⟩
  | .hbm, ⟨7, _⟩ => ⟨S192x192, .f32⟩
  | .hbm, ⟨8, _⟩ => ⟨S192, .f32⟩
  | .hbm, ⟨9, _⟩ => ⟨S8192x8192, .bf16⟩
  | .hbm, ⟨10, _⟩ => ⟨S192x256, .f32⟩
  | .hbm, ⟨11, _⟩ => ⟨S1x192, .f32⟩
  | .hbm, ⟨12, _⟩ => ⟨S_, .f32⟩
  | .hbm, ⟨13, _⟩ => ⟨S1x512, .f32⟩
  | .hbm, ⟨14, _⟩ => ⟨S8192x512, .bf16⟩
  | .hbm, ⟨15, _⟩ => ⟨S8192x512, .f32⟩
  | .hbm, ⟨16, _⟩ => ⟨S_, .f32⟩
  | .hbm, ⟨17, _⟩ => ⟨S1x256, .f32⟩
  | .hbm, ⟨18, _⟩ => ⟨S8192x256, .bf16⟩
  | .hbm, ⟨19, _⟩ => ⟨S8192x256, .f32⟩
  | .hbm, ⟨20, _⟩ => ⟨S_, .f32⟩
  | .hbm, ⟨21, _⟩ => ⟨S1x192, .f32⟩
  | .hbm, ⟨22, _⟩ => ⟨S8192x192, .bf16⟩
  | .hbm, ⟨23, _⟩ => ⟨S8192x192, .f32⟩
  | .hbm, ⟨24, _⟩ => ⟨S8192x192, .bf16⟩
  | .hbm, ⟨25, _⟩ => ⟨S8192x8192, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S8192x256, .f32⟩
  | .hbm, ⟨35, _⟩ => ⟨S8192x256, .f32⟩
  | .hbm, ⟨36, _⟩ => ⟨S_, .f32⟩
  | .hbm, ⟨37, _⟩ => ⟨S8192x256, .f32⟩
  | .hbm, ⟨38, _⟩ => ⟨S8192x256, .f32⟩
  | .hbm, ⟨39, _⟩ => ⟨S_, .f32⟩
  | .hbm, ⟨40, _⟩ => ⟨S8192x256, .f32⟩
  | .hbm, ⟨41, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S1x512, .f32⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | .local _ .vmem, ⟨7, _⟩ => ⟨S1024x2048, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S256x512, .f32⟩
  | .local _ .vmem, ⟨16, _⟩ => ⟨S1x256, .f32⟩
  | .local _ .vmem, ⟨17, _⟩ => ⟨S1024x256, .bf16⟩
  | .local _ .vmem, ⟨18, _⟩ => ⟨S1024x256, .bf16⟩
  | .local _ .vmem, ⟨19, _⟩ => ⟨S1024x2048, .bf16⟩
  | .local _ .vmem, ⟨20, _⟩ => ⟨S1024x2048, .bf16⟩
  | .local _ .vmem, ⟨21, _⟩ => ⟨S2048x256, .bf16⟩
  | .local _ .vmem, ⟨22, _⟩ => ⟨S2048x256, .bf16⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | .local _ .vmem, ⟨27, _⟩ => ⟨S1024x256, .f32⟩
  | .local _ .vmem, ⟨28, _⟩ => ⟨S192x256, .f32⟩
  | .local _ .vmem, ⟨29, _⟩ => ⟨S1x192, .f32⟩
  | .local _ .vmem, ⟨30, _⟩ => ⟨S1024x192, .bf16⟩
  | .local _ .vmem, ⟨31, _⟩ => ⟨S1024x192, .bf16⟩
  | .local _ .vmem, ⟨32, _⟩ => ⟨S1024x2048, .bf16⟩
  | .local _ .vmem, ⟨33, _⟩ => ⟨S1024x2048, .bf16⟩
  | .local _ .vmem, ⟨34, _⟩ => ⟨S2048x192, .bf16⟩
  | .local _ .vmem, ⟨35, _⟩ => ⟨S2048x192, .bf16⟩
  | .local _ .vmem, ⟨36, _⟩ => ⟨S1024x192, .f32⟩
  | .local _ .vmem, ⟨37, _⟩ => ⟨S1024x192, .f32⟩
  | .local _ .vmem, ⟨38, _⟩ => ⟨S1024x192, .f32⟩
  | .local _ .vmem, ⟨39, _⟩ => ⟨S1024x192, .f32⟩
  | .local _ .vmem, ⟨40, _⟩ => ⟨S1024x192, .f32⟩
  | .local _ .vmem, ⟨41, _⟩ => ⟨S192x192, .f32⟩
  | .local _ .vmem, ⟨42, _⟩ => ⟨S1x192, .f32⟩
  | .local _ .vmem, ⟨43, _⟩ => ⟨S1024x192, .bf16⟩
  | .local _ .vmem, ⟨44, _⟩ => ⟨S1024x192, .bf16⟩
  | .local _ .vmem, ⟨45, _⟩ => ⟨S2048x192, .f32⟩
  | .local _ .vmem, ⟨46, _⟩ => ⟨S2048x192, .f32⟩
  | .local _ .vmem, ⟨47, _⟩ => ⟨S1024x192, .bf16⟩
  | .local _ .vmem, ⟨48, _⟩ => ⟨S1024x192, .bf16⟩
  | .local _ .vmem, ⟨49, _⟩ => ⟨S2048x1024, .f32⟩
  | .local _ .vmem, ⟨50, _⟩ => ⟨S2048x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_scratch0 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg2_0 : Ref sig .tc := ⟨.vmem, 42, rfl⟩
abbrev cc6_stg3_0 : Ref sig .tc := ⟨.vmem, 43, rfl⟩
abbrev cc6_stg3_1 : Ref sig .tc := ⟨.vmem, 44, rfl⟩
abbrev cc7_stg0_0 : Ref sig .tc := ⟨.vmem, 45, rfl⟩
abbrev cc7_stg0_1 : Ref sig .tc := ⟨.vmem, 46, rfl⟩
abbrev cc7_stg1_0 : Ref sig .tc := ⟨.vmem, 47, rfl⟩
abbrev cc7_stg1_1 : Ref sig .tc := ⟨.vmem, 48, rfl⟩
abbrev cc7_stg2_0 : Ref sig .tc := ⟨.vmem, 49, rfl⟩
abbrev cc7_stg2_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![8, 4], ![false, false]⟩

def k3_cond2 (i : grid3.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S192x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x192 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x192 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨2, ![8, 4], ![false, false]⟩

def k5_cond2 (i : grid5.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S2048x192 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x192 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S1024x192 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S192x192 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x192 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S1024x192 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨2, ![4, 8], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S2048x192 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S1024x192 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S2048x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

class Facts₀ : Prop where
  bitsLt_bf16_f32 : FTy.bits .bf16 < FTy.bits .f32
  concatenates_S64x256_S64x256_S64x256_S192x256_d0 : Shape.Concatenates [S64x256, S64x256, S64x256] S192x256 0
  shapeCasts_S192_S1x192 : S192.ShapeCasts S1x192
  bcast_S_S1x512 : S_.BroadcastsInDim S1x512 (![] : Fin 0 → Fin S1x512.rank)
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  transposes_S512x1024_p1_0_S1024x512 : S512x1024.Transposes [1, 0] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  packedbf16_S1024x512_S1024x512_0_0 : (Rect.unit (s := S1024x512) ![0, 0] S1024x512.size inb_S1024x512_S1024x512_0_0).PackedRows (EltTy.packing .bf16)
  shapeCasts_S1024x512_S1024x512 : S1024x512.ShapeCasts S1024x512
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bcast_S_S1x256 : S_.BroadcastsInDim S1x256 (![] : Fin 0 → Fin S1x256.rank)
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bcast_S_S1x192 : S_.BroadcastsInDim S1x192 (![] : Fin 0 → Fin S1x192.rank)
  inb_S192x256_S192x256_0_0 : ∀ a, (![0, 0] : Fin 2 → Nat) a + S192x256.size a ≤ S192x256.size a
  h_S192x256 : 0 < S192x256.numel
  shapeCasts_S192x256_S192x256 : S192x256.ShapeCasts S192x256
  transposes_S192x256_p1_0_S256x192 : S192x256.Transposes [1, 0] S256x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S1024x192 : S1x192.Broadcasts S1024x192
  inb_S1024x192_S1024x192_0_0 : ∀ a, (![0, 0] : Fin 2 → Nat) a + S1024x192.size a ≤ S1024x192.size a
  h_S1024x192 : 0 < S1024x192.numel
  packedbf16_S1024x192_S1024x192_0_0 : (Rect.unit (s := S1024x192) ![0, 0] S1024x192.size inb_S1024x192_S1024x192_0_0).PackedRows (EltTy.packing .bf16)
  shapeCasts_S1024x192_S1024x192 : S1024x192.ShapeCasts S1024x192
  inb_S2048x192_S2048x192_0_0 : ∀ a, (![0, 0] : Fin 2 → Nat) a + S2048x192.size a ≤ S2048x192.size a
  h_S2048x192 : 0 < S2048x192.numel
  shapeCasts_S2048x192_S2048x192 : S2048x192.ShapeCasts S2048x192
  inb_S192x192_S192x192_0_0 : ∀ a, (![0, 0] : Fin 2 → Nat) a + S192x192.size a ≤ S192x192.size a
  h_S192x192 : 0 < S192x192.numel
  transposes_S192x192_p1_0_S192x192 : S192x192.Transposes [1, 0] S192x192
  transposes_S1024x192_p1_0_S192x1024 : S1024x192.Transposes [1, 0] S192x1024
  inb_S2048x1024_S2048x1024_0_0 : ∀ a, (![0, 0] : Fin 2 → Nat) a + S2048x1024.size a ≤ S2048x1024.size a
  h_S2048x1024 : 0 < S2048x1024.numel
  bcast_S_S8192x512 : S_.BroadcastsInDim S8192x512 (![] : Fin 0 → Fin S8192x512.rank)
  bcast_S_S8192x256 : S_.BroadcastsInDim S8192x256 (![] : Fin 0 → Fin S8192x256.rank)
  dot_S1024x1024_S1024x512_S1024x512_1_0_0_1_n_n_wf : DotDims.WF S1024x1024 S1024x512 S1024x512 [1] [0] [0] [1] [] []
  dot_S1024x2048_S2048x512_S1024x512_1_0_0_1_n_n_wf : DotDims.WF S1024x2048 S2048x512 S1024x512 [1] [0] [0] [1] [] []
  dot_S1024x512_S512x256_S1024x256_1_0_0_1_n_n_wf : DotDims.WF S1024x512 S512x256 S1024x256 [1] [0] [0] [1] [] []
  dot_S1024x2048_S2048x256_S1024x256_1_0_0_1_n_n_wf : DotDims.WF S1024x2048 S2048x256 S1024x256 [1] [0] [0] [1] [] []
  dot_S1024x256_S256x192_S1024x192_1_0_0_1_n_n_wf : DotDims.WF S1024x256 S256x192 S1024x192 [1] [0] [0] [1] [] []
  dot_S1024x2048_S2048x192_S1024x192_1_0_0_1_n_n_wf : DotDims.WF S1024x2048 S2048x192 S1024x192 [1] [0] [0] [1] [] []
  dot_S1024x192_S192x192_S1024x192_1_0_0_1_n_n_wf : DotDims.WF S1024x192 S192x192 S1024x192 [1] [0] [0] [1] [] []
  dot_S2048x192_S192x1024_S2048x1024_1_0_0_1_n_n_wf : DotDims.WF S2048x192 S192x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x512.size a
  hwx0_3 : ∀ i : grid0.Coords, EltTy.bits .bf16 = 32 ∨ (Rect.block (s := S8192x512) S1024x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .bf16 = 32 ∨ (Rect.block (s := S8192x8192) S1024x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S8192x512.size a
  hwx1_1 : ∀ i : grid1.Coords, EltTy.bits .bf16 = 32 ∨ (Rect.block (s := S8192x512) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .f32 = 32 ∨ (Rect.block (s := S8192x512) S1024x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S8192x512.size a
  hwx2_0 : ∀ i : grid2.Coords, EltTy.bits .f32 = 32 ∨ (Rect.block (s := S8192x512) S1024x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x512.size a ≤ S256x512.size a
  hwx2_1 : ∀ i : grid2.Coords, EltTy.bits .f32 = 32 ∨ (Rect.block (s := S256x512) S256x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S8192x256.size a
  hwx2_3 : ∀ i : grid2.Coords, EltTy.bits .bf16 = 32 ∨ (Rect.block (s := S8192x256) S1024x256.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x8192.size a
  hwx3_0 : ∀ i : grid3.Coords, EltTy.bits .bf16 = 32 ∨ (Rect.block (s := S8192x8192) S1024x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S8192x256.size a
  hwx3_1 : ∀ i : grid3.Coords, EltTy.bits .bf16 = 32 ∨ (Rect.block (s := S8192x256) S2048x256.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x256.size a ≤ S8192x256.size a
  hwx3_2 : ∀ i : grid3.Coords, EltTy.bits .f32 = 32 ∨ (Rect.block (s := S8192x256) S1024x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x256.size a ≤ S8192x256.size a
  hwx4_0 : ∀ i : grid4.Coords, EltTy.bits .f32 = 32 ∨ (Rect.block (s := S8192x256) S1024x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S192x256.size a ≤ S192x256.size a
  hwx4_1 : ∀ i : grid4.Coords, EltTy.bits .f32 = 32 ∨ (Rect.block (s := S192x256) S192x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x192.size a ≤ S1x192.size a
  hwx4_2 : ∀ i : grid4.Coords, EltTy.bits .f32 = 32 ∨ (Rect.block (s := S1x192) S1x192.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x192.size a ≤ S8192x192.size a
  hwx4_3 : ∀ i : grid4.Coords, EltTy.bits .bf16 = 32 ∨ (Rect.block (s := S8192x192) S1024x192.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x2048.size a ≤ S8192x8192.size a
  hwx5_0 : ∀ i : grid5.Coords, EltTy.bits .bf16 = 32 ∨ (Rect.block (s := S8192x8192) S1024x2048.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x192.size a ≤ S8192x192.size a
  hwx5_1 : ∀ i : grid5.Coords, EltTy.bits .bf16 = 32 ∨ (Rect.block (s := S8192x192) S2048x192.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x192.size a ≤ S8192x192.size a
  hwx5_2 : ∀ i : grid5.Coords, EltTy.bits .f32 = 32 ∨ (Rect.block (s := S8192x192) S1024x192.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x192.size a ≤ S8192x192.size a
  hwx6_0 : ∀ i : grid6.Coords, EltTy.bits .f32 = 32 ∨ (Rect.block (s := S8192x192) S1024x192.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S192x192.size a ≤ S192x192.size a
  hwx6_1 : ∀ i : grid6.Coords, EltTy.bits .f32 = 32 ∨ (Rect.block (s := S192x192) S192x192.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x192.size a ≤ S1x192.size a
  hwx6_2 : ∀ i : grid6.Coords, EltTy.bits .f32 = 32 ∨ (Rect.block (s := S1x192) S1x192.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x192.size a ≤ S8192x192.size a
  hwx6_3 : ∀ i : grid6.Coords, EltTy.bits .bf16 = 32 ∨ (Rect.block (s := S8192x192) S1024x192.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2048x192.size a ≤ S8192x192.size a
  hwx7_0 : ∀ i : grid7.Coords, EltTy.bits .f32 = 32 ∨ (Rect.block (s := S8192x192) S2048x192.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x192.size a ≤ S8192x192.size a
  hwx7_1 : ∀ i : grid7.Coords, EltTy.bits .bf16 = 32 ∨ (Rect.block (s := S8192x192) S1024x192.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2048x1024.size a ≤ S8192x8192.size a
  hwx7_2 : ∀ i : grid7.Coords, EltTy.bits .f32 = 32 ∨ (Rect.block (s := S8192x8192) S2048x1024.size (cc7_transform_2 i) (hinb7_2 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x192_S1024x192_1_0_0_1_n_n : DotDims S1024x256 S256x192 S1024x192 where
  lhsContracting := [1]
  rhsContracting := [0]
  lhsNonContracting := [0]
  rhsNonContracting := [1]
  lhsBatch := []
  rhsBatch := []
  wf := dot_S1024x256_S256x192_S1024x192_1_0_0_1_n_n_wf
def dot_S1024x2048_S2048x192_S1024x192_1_0_0_1_n_n : DotDims S1024x2048 S2048x192 S1024x192 where
  lhsContracting := [1]
  rhsContracting := [0]
  lhsNonContracting := [0]
  rhsNonContracting := [1]
  lhsBatch := []
  rhsBatch := []
  wf := dot_S1024x2048_S2048x192_S1024x192_1_0_0_1_n_n_wf
def dot_S1024x192_S192x192_S1024x192_1_0_0_1_n_n : DotDims S1024x192 S192x192 S1024x192 where
  lhsContracting := [1]
  rhsContracting := [0]
  lhsNonContracting := [0]
  rhsNonContracting := [1]
  lhsBatch := []
  rhsBatch := []
  wf := dot_S1024x192_S192x192_S1024x192_1_0_0_1_n_n_wf
def dot_S2048x192_S192x1024_S2048x1024_1_0_0_1_n_n : DotDims S2048x192 S192x1024 S2048x1024 where
  lhsContracting := [1]
  rhsContracting := [0]
  lhsNonContracting := [0]
  rhsNonContracting := [1]
  lhsBatch := []
  rhsBatch := []
  wf := dot_S2048x192_S192x1024_S2048x1024_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1024x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v5) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1024x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v0) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S1024x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v8) S1024x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S192x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v9) S1x192.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v10) S1024x192.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v0) S1024x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v10) S2048x192.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v11) S1024x192.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v11) S1024x192.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S192x192.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v2) S1x192.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v12) S1024x192.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v11) S2048x192.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v12) S1024x192.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v13) S2048x1024.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S8192x8192 : Shape := ⟨2, ![8192, 8192]⟩
abbrev S8192x1024 : Shape := ⟨2, ![8192, 1024]⟩
abbrev S512x1024 : Shape := ⟨2, ![512, 1024]⟩
abbrev S256x512 : Shape := ⟨2, ![256, 512]⟩
abbrev S64x256 : Shape := ⟨2, ![64, 256]⟩
abbrev S192x192 : Shape := ⟨2, ![192, 192]⟩
abbrev S192 : Shape := ⟨1, ![192]⟩
abbrev S1024x512 : Shape := ⟨2, ![1024, 512]⟩
abbrev S8192x512 : Shape := ⟨2, ![8192, 512]⟩
abbrev S_ : Shape := ⟨0, ![]⟩
abbrev S512x256 : Shape := ⟨2, ![512, 256]⟩
abbrev S8192x256 : Shape := ⟨2, ![8192, 256]⟩
abbrev S256x64 : Shape := ⟨2, ![256, 64]⟩
abbrev S8192x64 : Shape := ⟨2, ![8192, 64]⟩
abbrev S8192x192 : Shape := ⟨2, ![8192, 192]⟩
abbrev S1x192 : Shape := ⟨2, ![1, 192]⟩
abbrev S192x8192 : Shape := ⟨2, ![192, 8192]⟩

abbrev nBuf : Space → Nat
  | .hbm => 62
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x1024, .f32⟩
  | .hbm, ⟨2, _⟩ => ⟨S512x1024, .f32⟩
  | .hbm, ⟨3, _⟩ => ⟨S256x512, .f32⟩
  | .hbm, ⟨4, _⟩ => ⟨S64x256, .f32⟩
  | .hbm, ⟨5, _⟩ => ⟨S64x256, .f32⟩
  | .hbm, ⟨6, _⟩ => ⟨S64x256, .f32⟩
  | .hbm, ⟨7, _⟩ => ⟨S192x192, .f32⟩
  | .hbm, ⟨8, _⟩ => ⟨S192, .f32⟩
  | .hbm, ⟨9, _⟩ => ⟨S1024x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S512x256, .f32⟩
  | .hbm, ⟨16, _⟩ => ⟨S8192x256, .f32⟩
  | .hbm, ⟨17, _⟩ => ⟨S8192x256, .f32⟩
  | .hbm, ⟨18, _⟩ => ⟨S_, .f32⟩
  | .hbm, ⟨19, _⟩ => ⟨S8192x256, .f32⟩
  | .hbm, ⟨20, _⟩ => ⟨S8192x256, .f32⟩
  | .hbm, ⟨21, _⟩ => ⟨S256x64, .f32⟩
  | .hbm, ⟨22, _⟩ => ⟨S8192x64, .f32⟩
  | .hbm, ⟨23, _⟩ => ⟨S8192x64, .f32⟩
  | .hbm, ⟨24, _⟩ => ⟨S256x64, .f32⟩
  | .hbm, ⟨25, _⟩ => ⟨S8192x64, .f32⟩
  | .hbm, ⟨26, _⟩ => ⟨S8192x64, .f32⟩
  | .hbm, ⟨27, _⟩ => ⟨S256x64, .f32⟩
  | .hbm, ⟨28, _⟩ => ⟨S8192x64, .f32⟩
  | .hbm, ⟨29, _⟩ => ⟨S8192x64, .f32⟩
  | .hbm, ⟨30, _⟩ => ⟨S8192x192, .f32⟩
  | .hbm, ⟨31, _⟩ => ⟨S192x192, .f32⟩
  | .hbm, ⟨32, _⟩ => ⟨S8192x192, .f32⟩
  | .hbm, ⟨33, _⟩ => ⟨S1x192, .f32⟩
  | .hbm, ⟨34, _⟩ => ⟨S8192x192, .f32⟩
  | .hbm, ⟨35, _⟩ => ⟨S8192x192, .f32⟩
  | .hbm, ⟨36, _⟩ => ⟨S_, .f32⟩
  | .hbm, ⟨37, _⟩ => ⟨S_, .f32⟩
  | .hbm, ⟨38, _⟩ => ⟨S8192x192, .f32⟩
  | .hbm, ⟨39, _⟩ => ⟨S8192x192, .i1⟩
  | .hbm, ⟨40, _⟩ => ⟨S_, .f32⟩
  | .hbm, ⟨41, _⟩ => ⟨S8192x192, .f32⟩
  | .hbm, ⟨42, _⟩ => ⟨S8192x192, .f32⟩
  | .hbm, ⟨43, _⟩ => ⟨S8192x192, .f32⟩
  | .hbm, ⟨44, _⟩ => ⟨S192x8192, .f32⟩
  | .hbm, ⟨45, _⟩ => ⟨S8192x8192, .f32⟩
  | .hbm, ⟨46, _⟩ => ⟨S8192x512, .f32⟩
  | .hbm, ⟨47, _⟩ => ⟨S8192x512, .f32⟩
  | .hbm, ⟨48, _⟩ => ⟨S_, .f32⟩
  | .hbm, ⟨49, _⟩ => ⟨S8192x512, .f32⟩
  | .hbm, ⟨50, _⟩ => ⟨S8192x512, .f32⟩
  | .hbm, ⟨51, _⟩ => ⟨S_, .f32⟩
  | .hbm, ⟨52, _⟩ => ⟨S8192x512, .f32⟩
  | .hbm, ⟨53, _⟩ => ⟨S8192x512, .f32⟩
  | .hbm, ⟨54, _⟩ => ⟨S8192x256, .f32⟩
  | .hbm, ⟨55, _⟩ => ⟨S8192x256, .f32⟩
  | .hbm, ⟨56, _⟩ => ⟨S_, .f32⟩
  | .hbm, ⟨57, _⟩ => ⟨S8192x256, .f32⟩
  | .hbm, ⟨58, _⟩ => ⟨S8192x256, .f32⟩
  | .hbm, ⟨59, _⟩ => ⟨S_, .f32⟩
  | .hbm, ⟨60, _⟩ => ⟨S8192x256, .f32⟩
  | .hbm, ⟨61, _⟩ => ⟨S8192x256, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_cst : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call1_cst : Ref sig .tc := ⟨.hbm, 18, rfl⟩
abbrev main_call1_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_call2_cst : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_0 : Ref sig .tc := ⟨.hbm, 48, rfl⟩
abbrev main_v28 : Ref sig .tc := ⟨.hbm, 49, rfl⟩
abbrev main_v29 : Ref sig .tc := ⟨.hbm, 50, rfl⟩
abbrev main_cst_1 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_2 : Ref sig .tc := ⟨.hbm, 56, rfl⟩
abbrev main_v34 : Ref sig .tc := ⟨.hbm, 57, rfl⟩
abbrev main_v35 : Ref sig .tc := ⟨.hbm, 58, rfl⟩
abbrev main_cst_3 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S_S8192x512 : S_.BroadcastsInDim S8192x512 (![] : Fin 0 → Fin S8192x512.rank)
  transposes_S256x512_S512x256_1_0 : S256x512.Transposes [1, 0] S512x256
  bcast_S_S8192x256 : S_.BroadcastsInDim S8192x256 (![] : Fin 0 → Fin S8192x256.rank)
  transposes_S64x256_S256x64_1_0 : S64x256.Transposes [1, 0] S256x64
  concatenates_S8192x64_S8192x64_S8192x64_S8192x192_d1 : Shape.Concatenates [S8192x64, S8192x64, S8192x64] S8192x192 1
  transposes_S192x192_S192x192_1_0 : S192x192.Transposes [1, 0] S192x192
  bcast_S192_S1x192_1 : S192.BroadcastsInDim S1x192 (![1] : Fin 1 → Fin S1x192.rank)
  bcast_S1x192_S8192x192_0_1 : S1x192.BroadcastsInDim S8192x192 (![0, 1] : Fin 2 → Fin S8192x192.rank)
  bcast_S_S8192x192 : S_.BroadcastsInDim S8192x192 (![] : Fin 0 → Fin S8192x192.rank)
  transposes_S8192x192_S192x8192_1_0 : S8192x192.Transposes [1, 0] S192x8192
  dot_S8192x1024_S1024x512_S8192x512_1_0_0_1_n_n_wf : DotDims.WF S8192x1024 S1024x512 S8192x512 [1] [0] [0] [1] [] []
  dot_S8192x8192_S8192x512_S8192x512_1_0_0_1_n_n_wf : DotDims.WF S8192x8192 S8192x512 S8192x512 [1] [0] [0] [1] [] []
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x64_S8192x64_1_0_0_1_n_n_wf : DotDims.WF S8192x256 S256x64 S8192x64 [1] [0] [0] [1] [] []
  dot_S8192x8192_S8192x64_S8192x64_1_0_0_1_n_n_wf : DotDims.WF S8192x8192 S8192x64 S8192x64 [1] [0] [0] [1] [] []
  dot_S8192x192_S192x192_S8192x192_1_0_0_1_n_n_wf : DotDims.WF S8192x192 S192x192 S8192x192 [1] [0] [0] [1] [] []
  dot_S8192x192_S192x8192_S8192x8192_1_0_0_1_n_n_wf : DotDims.WF S8192x192 S192x8192 S8192x8192 [1] [0] [0] [1] [] []

variable [Facts₀]

def dot_S8192x1024_S1024x512_S8192x512_1_0_0_1_n_n : DotDims S8192x1024 S1024x512 S8192x512 where
  lhsContracting := [1]
  rhsContracting := [0]
  lhsNonContracting := [0]
  rhsNonContracting := [1]
  lhsBatch := []
  rhsBatch := []
  wf := dot_S8192x1024_S1024x512_S8192x512_1_0_0_1_n_n_wf
def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x64_S8192x64_1_0_0_1_n_n : DotDims S8192x256 S256x64 S8192x64 where
  lhsContracting := [1]
  rhsContracting := [0]
  lhsNonContracting := [0]
  rhsNonContracting := [1]
  lhsBatch := []
  rhsBatch := []
  wf := dot_S8192x256_S256x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x192_S192x192_S8192x192_1_0_0_1_n_n : DotDims S8192x192 S192x192 S8192x192 where
  lhsContracting := [1]
  rhsContracting := [0]
  lhsNonContracting := [0]
  rhsNonContracting := [1]
  lhsBatch := []
  rhsBatch := []
  wf := dot_S8192x192_S192x192_S8192x192_1_0_0_1_n_n_wf
def dot_S8192x192_S192x8192_S8192x8192_1_0_0_1_n_n : DotDims S8192x192 S192x8192 S8192x8192 where
  lhsContracting := [1]
  rhsContracting := [0]
  lhsNonContracting := [0]
  rhsNonContracting := [1]
  lhsBatch := []
  rhsBatch := []
  wf := dot_S8192x192_S192x8192_S8192x8192_1_0_0_1_n_n_wf

class Facts : Prop extends Facts₀ where

variable [Facts]
-- ==== Proof.LibBody.lean ====
import Idealize.ShloMosaic.Lib.Pipeline.FrameBody
import Idealize.ShloMosaic.Lib.Pipeline.Value

noncomputable section

namespace Cert.LibBody

open Idealize.ShloMosaic

variable {F : FTy → Type} [FloatOps F] {sig : RefSig} {κ : Kind} {sp : Space} {S : Shape} {e : EltTy}

theorem origin2 : (![0, 0] : Fin 2 → ℕ) = fun _ => 0 := by
  funext a; fin_cases a <;> rfl

-- The rectangle at zero offsets of the whole extent holds every index, so the last store through it decides the contents.
theorem read_store_top (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon v f _ fun y => ⟨_, List.mem_cons_self, View.mem_set_unit_zero h inb y⟩,
    View.canon_cons_unit_zero h]

-- A load through that rectangle reads the whole contents.
theorem load_top (v : View sig κ sp S e) (f : v.ty.Contents (Elt F)) {off : Fin S.rank → ℕ} (h : off = fun _ => 0)
    (inb : ∀ a, off a + S.size a ≤ S.size a) :
    v.readAt (Elt F) (Rect.unit off S.size inb).toLoadRect f = v.read (Elt F) f :=
  View.ld_unit_zero h inb _

end Cert.LibBody

end
-- ==== Proof.KernelBits.R0.lean ====
import proofs.«100585_j72756745994352_1_alg».proof.Proof.Gen.Kernel.Launch
import proofs.«100585_j72756745994352_1_alg».proof.Proof.Gen.Kernel.Skeleton
import proofs.«100585_j72756745994352_1_alg».proof.Proof.Gen.Kernel.Points
import proofs.«100585_j72756745994352_1_alg».proof.Proof.LibBody
import Idealize.ShloMosaic.Lib.Pipeline.RegionsLoop
import Idealize.ShloMosaic.Lib.Pipeline.FrameSuffix
import Idealize.ShloMosaic.Lib.Ring

noncomputable section

namespace Cert.Kernel.Hand

open Cert.Kernel Cert.Kernel.Gen Cert.LibBody
open Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem

variable {F : FTy → Type} [FloatOps F]

variable (V : (c : Dev nD) → (b : Ref sig .tc) → Buf (Elt F) ((c : Thread nD τ).loc b))
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = k0_pay1 (iblk0 V c 0 t) (iblk0 V c 1 t) (iblk0 V c 2 t) := rfl

-- For an input window the contents before a point are the window's block, which is also what the body leaves.
theorem before0_in (c : Dev nD) : ∀ w : Fin cfg0.W, (cfg0.win w).isOut = false → ∀ t d, (dat0 V c).before w t d = (dat0 V c).after w t
  | 0, _, t, d | 1, _, t, d | 2, _, t, d =>
    ((dat0 V c).before_in_eq_fetched _ rfl (fun _ => rfl) (fun _ _ _ => rfl) (fun _ => rfl) t d).trans rfl
  | 3, h, _, _ => absurd h (by decide)

-- One store through the whole output rectangle decides what it reads as; the inputs are only read.
theorem body_obligation0 (c : Dev nD) : BodyObligation (dat0 (F := F) V c) (defs₀ (F := F)) Variants.none () Set.univ := fun t => by
  rw [bigSep_W0, bigSep_W0]
  show _ ⊢ wp _ _ _ (bodyAt0 t) _
  simp only [before0_in V c 0 rfl, before0_in V c 1 rfl, before0_in V c 2 rfl, bodyAt0, cc0__linear_body_eq_skeleton,
    show (dat0 V c).Φ t.succ = (dat0 V c).Φ t.castSucc from rfl, show (dat0 V c).owesAt () t.succ = (dat0 V c).owesAt () t.castSucc from rfl]
  unfold cc0__linear_body_skel owns
  iintro ⟨HΦ, Ho, ⟨%_, %f0, %h0, H0⟩, ⟨%_, %f1, %h1, H1⟩, ⟨%_, %f2, %h2, H2⟩, ⟨%_, %f3, -, H3⟩⟩
  sl_exec
  sl_step
  iframe HΦ Ho
  isplitl [H0]; · iexists f0; iframe %h0 H0
  isplitl [H1]; · iexists f1; iframe %h1 H1
  isplitl [H2]; · iexists f2; iframe %h2 H2
  iexists _; iframe; ipureintro
  exact (read_store_top _ _ origin2 _ _ _).trans (congr (congr (congrArg k0_pay1 ((load_top _ _ origin2 _).trans h0))
    ((load_top _ _ origin2 _).trans h1)) ((load_top _ _ origin2 _).trans h2))

end Cert.Kernel.Hand

end
-- ==== Proof.KernelBits.R1.lean ====
import proofs.«100585_j72756745994352_1_alg».proof.Proof.Gen.Kernel.Launch
import proofs.«100585_j72756745994352_1_alg».proof.Proof.Gen.Kernel.Skeleton
import proofs.«100585_j72756745994352_1_alg».proof.Proof.Gen.Kernel.Points
import proofs.«100585_j72756745994352_1_alg».proof.Proof.LibBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 1).val) 0#32)) 0#32) = 1#1

theorem hcond1_0 : ∀ t : Fin cfg1.N, cond1_0 (grid1.coords t) ↔ t.val % 4 = 0 := by decide +kernel

abbrev cond1_1 (i : grid1.Coords) : Prop := k1_cond2 i = 1#1

theorem excl1 : ∀ t : Fin cfg1.N, cond1_0 (grid1.coords t) → ¬cond1_1 (grid1.coords t) := by decide +kernel

-- The accumulator is reset where the first condition holds, then stepped; the output is stored where the second holds.
theorem run1 {c : Dev nD} {E : Set ℕ} {i : grid1.Coords} {arg2 harg2 arg3 harg3 arg4 harg4 arg5 harg5 x0 x1 s b} (d)
    (hx : cond1_0 i → ¬cond1_1 i) (hs : s = k1_pay2 (if cond1_0 i then k1_pay1 (F := F) else b) x0 x1) {K : PUnit → sProp 𝕄} :
    iprop(owns c.tc arg2 fullShare x0 ∗ owns c.tc arg3 fullShare x1
        ∗ owns c.tc arg4 fullShare d ∗ owns c.tc arg5 fullShare b
        ∗ (iprop(owns c.tc arg2 fullShare x0 ∗ owns c.tc arg3 fullShare x1
            ∗ owns c.tc arg4 fullShare (if cond1_1 i then k1_pay3 s else d)
            ∗ owns c.tc arg5 fullShare s) -∗ K ⟨⟩))
      ⊢ wp frame (wpE (defs₀ (F := F)) Variants.none c.tc none) E (cc1__spmm_body i arg2 harg2 arg3 harg3 arg4 harg4 arg5 harg5) K := by
  subst hs
  by_cases hc0 : cond1_0 i <;> by_cases hc1 : cond1_1 i
  · exact absurd hc1 (hx hc0)
  all_goals
    first | rw [if_pos hc0] | rw [if_neg hc0]
    first | rw [if_pos hc1] | rw [if_neg hc1]
    simp only [cc1__spmm_body_eq_skeleton]; unfold cc1__spmm_body_skel owns
    iintro ⟨⟨%f0, %hf0, H0⟩, ⟨%f1, %hf1, H1⟩, ⟨%fd, %hfd, HD⟩, ⟨%fb, %hfb, HA⟩, Hk⟩
    subst hf0 hf1 hfd hfb
    sl_exec (disch := first | exact hc0 | exact hc1)
    sl_step
    iapply Hk
    isplitl [H0]; swap; isplitl [H1]; swap; isplitl [HD]
    all_goals
      iexists _; isplitr
      swap; · iassumption
      ipureintro
      try sl_unfold_run_names
      repeat (first | rewrite [LibBody.read_store_top] | rewrite [View.readCov_unit_zero] | rewrite [LibBody.load_top])
      all_goals first | rfl | exact LibBody.origin2

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1 (c : Dev nD) : (n : ℕ) → n < cfg1.N → Vec F S1024x512 .f32
  | 0, h => k1_pay2 (k1_pay1 (F := F)) (iblk1 V c 0 ⟨0, h⟩) (iblk1 V c 1 ⟨0, h⟩)
  | n + 1, h =>
    if (n + 1) % 4 = 0 then k1_pay2 (k1_pay1 (F := F)) (iblk1 V c 0 ⟨n + 1, h⟩) (iblk1 V c 1 ⟨n + 1, h⟩)
    else k1_pay2 (acc1 c n (Nat.lt_of_succ_lt h)) (iblk1 V c 0 ⟨n + 1, h⟩) (iblk1 V c 1 ⟨n + 1, h⟩)

theorem acc1_reset (c : Dev nD) (t : Fin cfg1.N) (h : t.val % 4 = 0) :
    acc1 V c t.val t.isLt = k1_pay2 (k1_pay1 (F := F)) (iblk1 V c 0 t) (iblk1 V c 1 t) := by
  obtain ⟨n, hn⟩ := t
  cases n with
  | zero => rfl
  | succ n => exact if_pos h

theorem acc1_step (c : Dev nD) (t : Fin cfg1.N) (h : t.val % 4 ≠ 0) :
    acc1 V c t.val t.isLt
      = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod 4) h
  | succ n => exact (if_neg h).trans rfl

-- Reset or not, the body's step from what the position before left is the accumulator's value here.
theorem acc1_eq (c : Dev nD) (t : Fin cfg1.N) (b : Vec F S1024x512 .f32) (hb : ∀ h, t.val ≠ 0 → b = acc1 V c (t.val - 1) h) :
    acc1 V c t.val t.isLt
      = k1_pay2 (if cond1_0 (grid1.coords t) then k1_pay1 (F := F) else b) (iblk1 V c 0 t) (iblk1 V c 1 t) := by
  by_cases h0 : t.val % 4 = 0
  · rw [if_pos ((hcond1_0 t).mpr h0), acc1_reset V c t h0]
  · rw [if_neg (mt (hcond1_0 t).mp h0), acc1_step V c t h0, ← hb _ fun h => h0 (by rw [h])]

-- Before position n the accumulator holds something, which past the first position is what the position before left.
def Phi1 (c : Dev nD) (n : ℕ) : sProp 𝕄 :=
  iprop(∃ b, ⌜∀ h, n ≠ 0 → b = acc1 V c (n - 1) h⌝ ∗ owns c.tc (Memref.whole cc1_scratch0) fullShare b
    ∗ Pipeline.scopedRestBut spec1 c [cc1_scratch0] ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := Phi1 V c t.val
  q _ := fullShare
  owed _ := 0

theorem Phi1_eq (c : Dev nD) (t) : (dat1 V c).Φ t = Phi1 V c t.val := rfl

theorem A_eq1 (c : Dev nD) (w : Fin cfg1.W) : (dat1 V c).A w = V c (Pipeline.arrRef spec1 w) := by
  dsimp only [dat1]

theorem after1_2 (c : Dev nD) (t : Fin cfg1.N) :
    (dat1 V c).after 2 t = k1_pay3 (acc1 V c t.val t.isLt) := by dsimp only [dat1]

theorem PhiA1_eq (c : Dev nD) :
    (Pipeline.ΦA spec1 c : sProp 𝕄)
      = iprop(iprop((∃ a, owns c.tc (Memref.whole cc1_scratch0) fullShare a)
          ∗ Pipeline.scopedRestBut spec1 c [cc1_scratch0])
        ∗ (∃ r, prngReg c r)) := by
  unfold Pipeline.ΦA; rw [scopedRest1_split]; simp only [owns_whole]; try rfl

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cond1_1 (grid1.coords t) → cfg1.idle 2 (grid1.coords t) = false := by decide +kernel
theorem idle1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel

-- The output's block after the body: the stored value where the second condition holds, else what it was.
theorem leaves1_2 (c : Dev nD) (t : Fin cfg1.N) (d) :
    owns c.tc (win1_2.stage (cfg1.slots t 2)) fullShare
        (if cond1_1 (grid1.coords t) then k1_pay3 (acc1 V c t.val t.isLt) else (dat1 V c).before 2 t d)
      ⊢ (dat1 V c).leavesExact 2 t := by
  by_cases h3 : cond1_1 (grid1.coords t)
  · rw [if_pos h3, ← after1_2]; unfold Dat.leavesExact; rw [live1_2 t h3]
  · rw [if_neg h3, Dat.leavesExact_idle (dat1 V c) 2 t (idle1_2 t h3) (noFlush1_2 t h3)]
    iintro H; iexists d; iexact H

theorem body_obligation1 (c : Dev nD) : BodyObligation (dat1 (F := F) V c) (defs₀ (F := F)) Variants.none () Set.univ := fun t => by
  rw [bigSep_W1, bigSep_W1]
  show _ ⊢ wp _ _ _ (bodyAt1 t) _
  simp only [(dat1 V c).before_fetched 0 t (fetch1_0 t), (dat1 V c).before_fetched 1 t (fetch1_1 t),
    show ∀ d, (dat1 V c).fetched 0 t d = iblk1 V c 0 t from fun _ => rfl,
    show ∀ d, (dat1 V c).fetched 1 t d = iblk1 V c 1 t from fun _ => rfl, live1_0 t, live1_1 t, bodyAt1, Phi1_eq, Fin.coe_castSucc, Fin.val_succ, Phi1,
    show (dat1 V c).after 0 t = iblk1 V c 0 t from rfl, show (dat1 V c).after 1 t = iblk1 V c 1 t from rfl,
    show (dat1 V c).owesAt () t.succ = (dat1 V c).owesAt () t.castSucc from rfl]
  iintro ⟨⟨%b, %hb, HS, HR, Hg⟩, Ho, ⟨%d0, H0⟩, ⟨%d1, H1⟩, ⟨%d2, H2⟩⟩
  iapply run1 ((dat1 V c).before 2 t d2) (excl1 t) (acc1_eq V c t b hb)
  iframe H0 H1 H2 HS
  iintro ⟨H0, H1, H2, HS⟩
  isplitl [HS HR Hg]
  · iexists acc1 V c t.val t.isLt; isplitr; · ipureintro; exact fun _ _ => rfl
    iframe
  iframe Ho H0 H1
  iapply (leaves1_2 V c t d2)
  iexact H2

theorem hin1 (c : Dev nD) : (Pipeline.ΦA spec1 c : sProp 𝕄) ⊢ (dat1 V c).Φ 0 := by
  rw [PhiA1_eq, Phi1_eq]; unfold Phi1
  iintro ⟨⟨⟨%a, HS⟩, HR⟩, Hg⟩
  iexists a; isplitr; · ipureintro; exact fun _ h => absurd rfl h
  iframe

theorem hout1 (c : Dev nD) : (dat1 V c).Φ (Fin.last cfg1.N) ⊢ (Pipeline.ΦA spec1 c : sProp 𝕄) := by
  rw [PhiA1_eq, Phi1_eq]; unfold Phi1
  iintro ⟨%b, -, HS, HR, Hg⟩
  iframe HR Hg
  iexists b; iexact HS

end Cert.Kernel.Hand

end
-- ==== Proof.KernelBits.R2.lean ====
import proofs.«100585_j72756745994352_1_alg».proof.Proof.Gen.Kernel.Launch
import proofs.«100585_j72756745994352_1_alg».proof.Proof.Gen.Kernel.Skeleton
import proofs.«100585_j72756745994352_1_alg».proof.Proof.Gen.Kernel.Points
import proofs.«100585_j72756745994352_1_alg».proof.Proof.LibBody
import Idealize.ShloMosaic.Lib.Pipeline.RegionsLoop
import Idealize.ShloMosaic.Lib.Pipeline.FrameSuffix
import Idealize.ShloMosaic.Lib.Ring

noncomputable section

namespace Cert.Kernel.Hand

open Cert.Kernel Cert.Kernel.Gen Cert.LibBody
open Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem

variable {F : FTy → Type} [FloatOps F]

variable (V : (c : Dev nD) → (b : Ref sig .tc) → Buf (Elt F) ((c : Thread nD τ).loc b))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) :
    (dat2 V c).after 3 t = k2_pay1 (iblk2 V c 0 t) (iblk2 V c 1 t) (iblk2 V c 2 t) := rfl

-- For an input window the contents before a point are the window's block, which is also what the body leaves.
theorem before2_in (c : Dev nD) : ∀ w : Fin cfg2.W, (cfg2.win w).isOut = false → ∀ t d, (dat2 V c).before w t d = (dat2 V c).after w t
  | 0, _, t, d | 1, _, t, d | 2, _, t, d =>
    ((dat2 V c).before_in_eq_fetched _ rfl (fun _ => rfl) (fun _ _ _ => rfl) (fun _ => rfl) t d).trans rfl
  | 3, h, _, _ => absurd h (by decide)

-- One store through the whole output rectangle decides what it reads as; the inputs are only read.
theorem body_obligation2 (c : Dev nD) : BodyObligation (dat2 (F := F) V c) (defs₀ (F := F)) Variants.none () Set.univ := fun t => by
  rw [bigSep_W2, bigSep_W2]
  show _ ⊢ wp _ _ _ (bodyAt2 t) _
  simp only [before2_in V c 0 rfl, before2_in V c 1 rfl, before2_in V c 2 rfl, bodyAt2, cc2__linear_body_eq_skeleton,
    show (dat2 V c).Φ t.succ = (dat2 V c).Φ t.castSucc from rfl, show (dat2 V c).owesAt () t.succ = (dat2 V c).owesAt () t.castSucc from rfl]
  unfold cc2__linear_body_skel owns
  iintro ⟨HΦ, Ho, ⟨%_, %f0, %h0, H0⟩, ⟨%_, %f1, %h1, H1⟩, ⟨%_, %f2, %h2, H2⟩, ⟨%_, %f3, -, H3⟩⟩
  sl_exec
  sl_step
  iframe HΦ Ho
  isplitl [H0]; · iexists f0; iframe %h0 H0
  isplitl [H1]; · iexists f1; iframe %h1 H1
  isplitl [H2]; · iexists f2; iframe %h2 H2
  iexists _; iframe; ipureintro
  exact (read_store_top _ _ origin2 _ _ _).trans (congr (congr (congrArg k2_pay1 ((load_top _ _ origin2 _).trans h0))
    ((load_top _ _ origin2 _).trans h1)) ((load_top _ _ origin2 _).trans h2))

end Cert.Kernel.Hand

end
-- ==== Proof.KernelBits.R3.lean ====
import proofs.«100585_j72756745994352_1_alg».proof.Proof.Gen.Kernel.Launch
import proofs.«100585_j72756745994352_1_alg».proof.Proof.Gen.Kernel.Skeleton
import proofs.«100585_j72756745994352_1_alg».proof.Proof.Gen.Kernel.Points
import proofs.«100585_j72756745994352_1_alg».proof.Proof.LibBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond3_0 (i : grid3.Coords) : Prop :=
  (Scalar.cmpi .ne (Scalar.extui (Scalar.cmpi .eq (BitVec.ofNat 32 (i 1).val) 0#32)) 0#32) = 1#1

theorem hcond3_0 : ∀ t : Fin cfg3.N, cond3_0 (grid3.coords t) ↔ t.val % 4 = 0 := by decide +kernel

abbrev cond3_1 (i : grid3.Coords) : Prop := k3_cond2 i = 1#1

theorem excl3 : ∀ t : Fin cfg3.N, cond3_0 (grid3.coords t) → ¬cond3_1 (grid3.coords t) := by decide +kernel

-- The accumulator is reset where the first condition holds, then stepped; the output is stored where the second holds.
theorem run3 {c : Dev nD} {E : Set ℕ} {i : grid3.Coords} {arg2 harg2 arg3 harg3 arg4 harg4 arg5 harg5 x0 x1 s b} (d)
    (hx : cond3_0 i → ¬cond3_1 i) (hs : s = k3_pay2 (if cond3_0 i then k3_pay1 (F := F) else b) x0 x1) {K : PUnit → sProp 𝕄} :
    iprop(owns c.tc arg2 fullShare x0 ∗ owns c.tc arg3 fullShare x1
        ∗ owns c.tc arg4 fullShare d ∗ owns c.tc arg5 fullShare b
        ∗ (iprop(owns c.tc arg2 fullShare x0 ∗ owns c.tc arg3 fullShare x1
            ∗ owns c.tc arg4 fullShare (if cond3_1 i then k3_pay3 s else d)
            ∗ owns c.tc arg5 fullShare s) -∗ K ⟨⟩))
      ⊢ wp frame (wpE (defs₀ (F := F)) Variants.none c.tc none) E (cc3__spmm_body i arg2 harg2 arg3 harg3 arg4 harg4 arg5 harg5) K := by
  subst hs
  by_cases hc0 : cond3_0 i <;> by_cases hc1 : cond3_1 i
  · exact absurd hc1 (hx hc0)
  all_goals
    first | rw [if_pos hc0] | rw [if_neg hc0]
    first | rw [if_pos hc1] | rw [if_neg hc1]
    simp only [cc3__spmm_body_eq_skeleton]; unfold cc3__spmm_body_skel owns
    iintro ⟨⟨%f0, %hf0, H0⟩, ⟨%f1, %hf1, H1⟩, ⟨%fd, %hfd, HD⟩, ⟨%fb, %hfb, HA⟩, Hk⟩
    subst hf0 hf1 hfd hfb
    sl_exec (disch := first | exact hc0 | exact hc1)
    sl_step
    iapply Hk
    isplitl [H0]; swap; isplitl [H1]; swap; isplitl [HD]
    all_goals
      iexists _; isplitr
      swap; · iassumption
      ipureintro
      try sl_unfold_run_names
      repeat (first | rewrite [LibBody.read_store_top] | rewrite [View.readCov_unit_zero] | rewrite [LibBody.load_top])
      all_goals first | rfl | exact LibBody.origin2

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (c : Dev nD) : (n : ℕ) → n < cfg3.N → Vec F S1024x256 .f32
  | 0, h => k3_pay2 (k3_pay1 (F := F)) (iblk3 V c 0 ⟨0, h⟩) (iblk3 V c 1 ⟨0, h⟩)
  | n + 1, h =>
    if (n + 1) % 4 = 0 then k3_pay2 (k3_pay1 (F := F)) (iblk3 V c 0 ⟨n + 1, h⟩) (iblk3 V c 1 ⟨n + 1, h⟩)
    else k3_pay2 (acc3 c n (Nat.lt_of_succ_lt h)) (iblk3 V c 0 ⟨n + 1, h⟩) (iblk3 V c 1 ⟨n + 1, h⟩)

theorem acc3_reset (c : Dev nD) (t : Fin cfg3.N) (h : t.val % 4 = 0) :
    acc3 V c t.val t.isLt = k3_pay2 (k3_pay1 (F := F)) (iblk3 V c 0 t) (iblk3 V c 1 t) := by
  obtain ⟨n, hn⟩ := t
  cases n with
  | zero => rfl
  | succ n => exact if_pos h

theorem acc3_step (c : Dev nD) (t : Fin cfg3.N) (h : t.val % 4 ≠ 0) :
    acc3 V c t.val t.isLt
      = k3_pay2 (acc3 V c (t.val - 1) (Nat.lt_of_le_of_lt (Nat.sub_le _ _) t.isLt)) (iblk3 V c 0 t) (iblk3 V c 1 t) := by
  obtain ⟨n, hn⟩ := t
  cases n with
  | zero => exact absurd (Nat.zero_mod 4) h
  | succ n => exact (if_neg h).trans rfl

-- Reset or not, the body's step from what the position before left is the accumulator's value here.
theorem acc3_eq (c : Dev nD) (t : Fin cfg3.N) (b : Vec F S1024x256 .f32) (hb : ∀ h, t.val ≠ 0 → b = acc3 V c (t.val - 1) h) :
    acc3 V c t.val t.isLt
      = k3_pay2 (if cond3_0 (grid3.coords t) then k3_pay1 (F := F) else b) (iblk3 V c 0 t) (iblk3 V c 1 t) := by
  by_cases h0 : t.val % 4 = 0
  · rw [if_pos ((hcond3_0 t).mpr h0), acc3_reset V c t h0]
  · rw [if_neg (mt (hcond3_0 t).mp h0), acc3_step V c t h0, ← hb _ fun h => h0 (by rw [h])]

-- Before position n the accumulator holds something, which past the first position is what the position before left.
def Phi3 (c : Dev nD) (n : ℕ) : sProp 𝕄 :=
  iprop(∃ b, ⌜∀ h, n ≠ 0 → b = acc3 V c (n - 1) h⌝ ∗ owns c.tc (Memref.whole cc3_scratch0) fullShare b
    ∗ Pipeline.scopedRestBut spec3 c [cc3_scratch0] ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (acc3 V c t.val t.isLt)
  Φ t := Phi3 V c t.val
  q _ := fullShare
  owed _ := 0

theorem Phi3_eq (c : Dev nD) (t) : (dat3 V c).Φ t = Phi3 V c t.val := rfl

theorem A_eq3 (c : Dev nD) (w : Fin cfg3.W) : (dat3 V c).A w = V c (Pipeline.arrRef spec3 w) := by
  dsimp only [dat3]

theorem after3_2 (c : Dev nD) (t : Fin cfg3.N) :
    (dat3 V c).after 2 t = k3_pay3 (acc3 V c t.val t.isLt) := by dsimp only [dat3]

theorem PhiA3_eq (c : Dev nD) :
    (Pipeline.ΦA spec3 c : sProp 𝕄)
      = iprop(iprop((∃ a, owns c.tc (Memref.whole cc3_scratch0) fullShare a)
          ∗ Pipeline.scopedRestBut spec3 c [cc3_scratch0])
        ∗ (∃ r, prngReg c r)) := by
  unfold Pipeline.ΦA; rw [scopedRest3_split]; simp only [owns_whole]; try rfl

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cond3_1 (grid3.coords t) → cfg3.idle 2 (grid3.coords t) = false := by decide +kernel
theorem idle3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel

-- The output's block after the body: the stored value where the second condition holds, else what it was.
theorem leaves3_2 (c : Dev nD) (t : Fin cfg3.N) (d) :
    owns c.tc (win3_2.stage (cfg3.slots t 2)) fullShare
        (if cond3_1 (grid3.coords t) then k3_pay3 (acc3 V c t.val t.isLt) else (dat3 V c).before 2 t d)
      ⊢ (dat3 V c).leavesExact 2 t := by
  by_cases h3 : cond3_1 (grid3.coords t)
  · rw [if_pos h3, ← after3_2]; unfold Dat.leavesExact; rw [live3_2 t h3]
  · rw [if_neg h3, Dat.leavesExact_idle (dat3 V c) 2 t (idle3_2 t h3) (noFlush3_2 t h3)]
    iintro H; iexists d; iexact H

theorem body_obligation3 (c : Dev nD) : BodyObligation (dat3 (F := F) V c) (defs₀ (F := F)) Variants.none () Set.univ := fun t => by
  rw [bigSep_W3, bigSep_W3]
  show _ ⊢ wp _ _ _ (bodyAt3 t) _
  simp only [(dat3 V c).before_fetched 0 t (fetch3_0 t), (dat3 V c).before_fetched 1 t (fetch3_1 t),
    show ∀ d, (dat3 V c).fetched 0 t d = iblk3 V c 0 t from fun _ => rfl,
    show ∀ d, (dat3 V c).fetched 1 t d = iblk3 V c 1 t from fun _ => rfl, live3_0 t, live3_1 t, bodyAt3, Phi3_eq, Fin.coe_castSucc, Fin.val_succ, Phi3,
    show (dat3 V c).after 0 t = iblk3 V c 0 t from rfl, show (dat3 V c).after 1 t = iblk3 V c 1 t from rfl,
    show (dat3 V c).owesAt () t.succ = (dat3 V c).owesAt () t.castSucc from rfl]
  iintro ⟨⟨%b, %hb, HS, HR, Hg⟩, Ho, ⟨%d0, H0⟩, ⟨%d1, H1⟩, ⟨%d2, H2⟩⟩
  iapply run3 ((dat3 V c).before 2 t d2) (excl3 t) (acc3_eq V c t b hb)
  iframe H0 H1 H2 HS
  iintro ⟨H0, H1, H2, HS⟩
  isplitl [HS HR Hg]
  · iexists acc3 V c t.val t.isLt; isplitr; · ipureintro; exact fun _ _ => rfl
    iframe
  iframe Ho H0 H1
  iapply (leaves3_2 V c t d2)
  iexact H2

theorem hin3 (c : Dev nD) : (Pipeline.ΦA spec3 c : sProp 𝕄) ⊢ (dat3 V c).Φ 0 := by
  rw [PhiA3_eq, Phi3_eq]; unfold Phi3
  iintro ⟨⟨⟨%a, HS⟩, HR⟩, Hg⟩
  iexists a; isplitr; · ipureintro; exact fun _ h => absurd rfl h
  iframe

theorem hout3 (c : Dev nD) : (dat3 V c).Φ (Fin.last cfg3.N) ⊢ (Pipeline.ΦA spec3 c : sProp 𝕄) := by
  rw [PhiA3_eq, Phi3_eq]; unfold Phi3
  iintro ⟨%b, -, HS, HR, Hg⟩
  iframe HR Hg
  iexists b; iexact HS

end Cert.Kernel.Hand

end
-- ==== Proof.KernelBits.R4.lean ====
import proofs.«100585_j72756745994352_1_alg».proof.Proof.Gen.Kernel.Launch
import proofs.«100585_j72756745994352_1_alg».proof.Proof.Gen.Kernel.Skeleton
import proofs.«100585_j72756745994352_1_alg».proof.Proof.Gen.Kernel.Points
import proofs.«100585_j72756745994352_1_alg».proof.Proof.LibBody
import Idealize.ShloMosaic.Lib.Pipeline.RegionsLoop
import Idealize.ShloMosaic.Lib.Pipeline.FrameSuffix
import Idealize.ShloMosaic.Lib.Ring

noncomputable section

namespace Cert.Kernel.Hand

open Cert.Kernel Cert.Kernel.Gen Cert.LibBody
open Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem

variable {F : FTy → Type} [FloatOps F]

variable (V : (c : Dev nD) → (b : Ref sig .tc) → Buf (Elt F) ((c : Thread nD τ).loc b))
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay1 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl

theorem after4_3 (c : Dev nD) (t : Fin cfg4.N) :
    (dat4 V c).after 3 t = k4_pay1 (iblk4 V c 0 t) (iblk4 V c 1 t) (iblk4 V c 2 t) := rfl

-- For an input window the contents before a point are the window's block, which is also what the body leaves.
theorem before4_in (c : Dev nD) : ∀ w : Fin cfg4.W, (cfg4.win w).isOut = false → ∀ t d, (dat4 V c).before w t d = (dat4 V c).after w t
  | 0, _, t, d | 1, _, t, d | 2, _, t, d =>
    ((dat4 V c).before_in_eq_fetched _ rfl (fun _ => rfl) (fun _ _ _ => rfl) (fun _ => rfl) t d).trans rfl
  | 3, h, _, _ => absurd h (by decide)

-- One store through the whole output rectangle decides what it reads as; the inputs are only read.
theorem body_obligation4 (c : Dev nD) : BodyObligation (dat4 (F := F) V c) (defs₀ (F := F)) Variants.none () Set.univ := fun t => by
  rw [bigSep_W4, bigSep_W4]
  show _ ⊢ wp _ _ _ (bodyAt4 t) _
  simp only [before4_in V c 0 rfl, before4_in V c 1 rfl, before4_in V c 2 rfl, bodyAt4, cc4__linear_body_eq_skeleton,
    show (dat4 V c).Φ t.succ = (dat4 V c).Φ t.castSucc from rfl, show (dat4 V c).owesAt () t.succ = (dat4 V c).owesAt () t.castSucc from rfl]
  unfold cc4__linear_body_skel owns
  iintro ⟨HΦ, Ho, ⟨%_, %f0, %h0, H0⟩, ⟨%_, %f1, %h1, H1⟩, ⟨%_, %f2, %h2, H2⟩, ⟨%_, %f3, -, H3⟩⟩
  sl_exec
  sl_step
  iframe HΦ Ho
  isplitl [H0]; · iexists f0; iframe %h0 H0
  isplitl [H1]; · iexists f1; iframe %h1 H1
  isplitl [H2]; · iexists f2; iframe %h2 H2
  iexists _; iframe; ipureintro
  exact (read_store_top _ _ origin2 _ _ _).trans (congr (congr (congrArg k4_pay1 ((load_top _ _ origin2 _).trans h0))
    ((load_top _ _ origin2 _).trans h1)) ((load_top _ _ origin2 _).trans h2))

end Cert.Kernel.Hand

end
-- ==== Proof.KernelBits.R5.lean ====
import proofs.«100585_j72756745994352_1_alg».proof.Proof.Gen.Kernel.Launch
import proofs.«100585_j72756745994352_1_alg».proof.Proof.Gen.Kernel.Skeleton
import proofs.«100585_j72756745994352_1_alg».proof.Proof.Gen.Kernel.Points
import proofs.«100585_j72756745994352_1_alg».proof.Proof.LibBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond5_0 (i : grid5.Coords) : Prop :=
  (Scalar.cmpi .ne (Scalar.extui (Scalar.cmpi .eq (BitVec.ofNat 32 (i 1).val) 0#32)) 0#32) = 1#1

theorem hcond5_0 : ∀ t : Fin cfg5.N, cond5_0 (grid5.coords t) ↔ t.val % 4 = 0 := by decide +kernel

abbrev cond5_1 (i : grid5.Coords) : Prop := k5_cond2 i = 1#1

theorem excl5 : ∀ t : Fin cfg5.N, cond5_0 (grid5.coords t) → ¬cond5_1 (grid5.coords t) := by decide +kernel

-- The accumulator is reset where the first condition holds, then stepped; the output is stored where the second holds.
theorem run5 {c : Dev nD} {E : Set ℕ} {i : grid5.Coords} {arg2 harg2 arg3 harg3 arg4 harg4 arg5 harg5 x0 x1 s b} (d)
    (hx : cond5_0 i → ¬cond5_1 i) (hs : s = k5_pay2 (if cond5_0 i then k5_pay1 (F := F) else b) x0 x1) {K : PUnit → sProp 𝕄} :
    iprop(owns c.tc arg2 fullShare x0 ∗ owns c.tc arg3 fullShare x1
        ∗ owns c.tc arg4 fullShare d ∗ owns c.tc arg5 fullShare b
        ∗ (iprop(owns c.tc arg2 fullShare x0 ∗ owns c.tc arg3 fullShare x1
            ∗ owns c.tc arg4 fullShare (if cond5_1 i then s else d)
            ∗ owns c.tc arg5 fullShare s) -∗ K ⟨⟩))
      ⊢ wp frame (wpE (defs₀ (F := F)) Variants.none c.tc none) E (cc5__spmm_body i arg2 harg2 arg3 harg3 arg4 harg4 arg5 harg5) K := by
  subst hs
  by_cases hc0 : cond5_0 i <;> by_cases hc1 : cond5_1 i
  · exact absurd hc1 (hx hc0)
  all_goals
    first | rw [if_pos hc0] | rw [if_neg hc0]
    first | rw [if_pos hc1] | rw [if_neg hc1]
    simp only [cc5__spmm_body_eq_skeleton]; unfold cc5__spmm_body_skel owns
    iintro ⟨⟨%f0, %hf0, H0⟩, ⟨%f1, %hf1, H1⟩, ⟨%fd, %hfd, HD⟩, ⟨%fb, %hfb, HA⟩, Hk⟩
    subst hf0 hf1 hfd hfb
    sl_exec (disch := first | exact hc0 | exact hc1)
    sl_step
    iapply Hk
    isplitl [H0]; swap; isplitl [H1]; swap; isplitl [HD]
    all_goals
      iexists _; isplitr
      swap; · iassumption
      ipureintro
      try sl_unfold_run_names
      repeat (first | rewrite [LibBody.read_store_top] | rewrite [View.readCov_unit_zero] | rewrite [LibBody.load_top])
      all_goals first | rfl | exact LibBody.origin2

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def acc5 (c : Dev nD) : (n : ℕ) → n < cfg5.N → Vec F S1024x192 .f32
  | 0, h => k5_pay2 (k5_pay1 (F := F)) (iblk5 V c 0 ⟨0, h⟩) (iblk5 V c 1 ⟨0, h⟩)
  | n + 1, h =>
    if (n + 1) % 4 = 0 then k5_pay2 (k5_pay1 (F := F)) (iblk5 V c 0 ⟨n + 1, h⟩) (iblk5 V c 1 ⟨n + 1, h⟩)
    else k5_pay2 (acc5 c n (Nat.lt_of_succ_lt h)) (iblk5 V c 0 ⟨n + 1, h⟩) (iblk5 V c 1 ⟨n + 1, h⟩)

theorem acc5_reset (c : Dev nD) (t : Fin cfg5.N) (h : t.val % 4 = 0) :
    acc5 V c t.val t.isLt = k5_pay2 (k5_pay1 (F := F)) (iblk5 V c 0 t) (iblk5 V c 1 t) := by
  obtain ⟨n, hn⟩ := t
  cases n with
  | zero => rfl
  | succ n => exact if_pos h

theorem acc5_step (c : Dev nD) (t : Fin cfg5.N) (h : t.val % 4 ≠ 0) :
    acc5 V c t.val t.isLt
      = k5_pay2 (acc5 V c (t.val - 1) (Nat.lt_of_le_of_lt (Nat.sub_le _ _) t.isLt)) (iblk5 V c 0 t) (iblk5 V c 1 t) := by
  obtain ⟨n, hn⟩ := t
  cases n with
  | zero => exact absurd (Nat.zero_mod 4) h
  | succ n => exact (if_neg h).trans rfl

-- Reset or not, the body's step from what the position before left is the accumulator's value here.
theorem acc5_eq (c : Dev nD) (t : Fin cfg5.N) (b : Vec F S1024x192 .f32) (hb : ∀ h, t.val ≠ 0 → b = acc5 V c (t.val - 1) h) :
    acc5 V c t.val t.isLt
      = k5_pay2 (if cond5_0 (grid5.coords t) then k5_pay1 (F := F) else b) (iblk5 V c 0 t) (iblk5 V c 1 t) := by
  by_cases h0 : t.val % 4 = 0
  · rw [if_pos ((hcond5_0 t).mpr h0), acc5_reset V c t h0]
  · rw [if_neg (mt (hcond5_0 t).mp h0), acc5_step V c t h0, ← hb _ fun h => h0 (by rw [h])]

-- Before position n the accumulator holds something, which past the first position is what the position before left.
def Phi5 (c : Dev nD) (n : ℕ) : sProp 𝕄 :=
  iprop(∃ b, ⌜∀ h, n ≠ 0 → b = acc5 V c (n - 1) h⌝ ∗ owns c.tc (Memref.whole cc5_scratch0) fullShare b
    ∗ Pipeline.scopedRestBut spec5 c [cc5_scratch0] ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => acc5 V c t.val t.isLt
  Φ t := Phi5 V c t.val
  q _ := fullShare
  owed _ := 0

theorem Phi5_eq (c : Dev nD) (t) : (dat5 V c).Φ t = Phi5 V c t.val := rfl

theorem A_eq5 (c : Dev nD) (w : Fin cfg5.W) : (dat5 V c).A w = V c (Pipeline.arrRef spec5 w) := by
  dsimp only [dat5]

theorem after5_2 (c : Dev nD) (t : Fin cfg5.N) :
    (dat5 V c).after 2 t = acc5 V c t.val t.isLt := by dsimp only [dat5]

theorem PhiA5_eq (c : Dev nD) :
    (Pipeline.ΦA spec5 c : sProp 𝕄)
      = iprop(iprop((∃ a, owns c.tc (Memref.whole cc5_scratch0) fullShare a)
          ∗ Pipeline.scopedRestBut spec5 c [cc5_scratch0])
        ∗ (∃ r, prngReg c r)) := by
  unfold Pipeline.ΦA; rw [scopedRest5_split]; simp only [owns_whole]; try rfl

theorem live5_0 : ∀ t : Fin cfg5.N, cfg5.idle 0 (grid5.coords t) = false := by decide +kernel
theorem live5_1 : ∀ t : Fin cfg5.N, cfg5.idle 1 (grid5.coords t) = false := by decide +kernel
theorem live5_2 : ∀ t : Fin cfg5.N, cond5_1 (grid5.coords t) → cfg5.idle 2 (grid5.coords t) = false := by decide +kernel
theorem idle5_2 : ∀ t : Fin cfg5.N, ¬cond5_1 (grid5.coords t) → cfg5.idle 2 (grid5.coords t) = true := by decide +kernel
theorem noFlush5_2 : ∀ t : Fin cfg5.N, ¬cond5_1 (grid5.coords t) → (cfg5.win 2).flush t = false := by decide +kernel

-- The output's block after the body: the stored value where the second condition holds, else what it was.
theorem leaves5_2 (c : Dev nD) (t : Fin cfg5.N) (d) :
    owns c.tc (win5_2.stage (cfg5.slots t 2)) fullShare
        (if cond5_1 (grid5.coords t) then acc5 V c t.val t.isLt else (dat5 V c).before 2 t d)
      ⊢ (dat5 V c).leavesExact 2 t := by
  by_cases h3 : cond5_1 (grid5.coords t)
  · rw [if_pos h3, ← after5_2]; unfold Dat.leavesExact; rw [live5_2 t h3]
  · rw [if_neg h3, Dat.leavesExact_idle (dat5 V c) 2 t (idle5_2 t h3) (noFlush5_2 t h3)]
    iintro H; iexists d; iexact H

theorem body_obligation5 (c : Dev nD) : BodyObligation (dat5 (F := F) V c) (defs₀ (F := F)) Variants.none () Set.univ := fun t => by
  rw [bigSep_W5, bigSep_W5]
  show _ ⊢ wp _ _ _ (bodyAt5 t) _
  simp only [(dat5 V c).before_fetched 0 t (fetch5_0 t), (dat5 V c).before_fetched 1 t (fetch5_1 t),
    show ∀ d, (dat5 V c).fetched 0 t d = iblk5 V c 0 t from fun _ => rfl,
    show ∀ d, (dat5 V c).fetched 1 t d = iblk5 V c 1 t from fun _ => rfl, live5_0 t, live5_1 t, bodyAt5, Phi5_eq, Fin.coe_castSucc, Fin.val_succ, Phi5,
    show (dat5 V c).after 0 t = iblk5 V c 0 t from rfl, show (dat5 V c).after 1 t = iblk5 V c 1 t from rfl,
    show (dat5 V c).owesAt () t.succ = (dat5 V c).owesAt () t.castSucc from rfl]
  iintro ⟨⟨%b, %hb, HS, HR, Hg⟩, Ho, ⟨%d0, H0⟩, ⟨%d1, H1⟩, ⟨%d2, H2⟩⟩
  iapply run5 ((dat5 V c).before 2 t d2) (excl5 t) (acc5_eq V c t b hb)
  iframe H0 H1 H2 HS
  iintro ⟨H0, H1, H2, HS⟩
  isplitl [HS HR Hg]
  · iexists acc5 V c t.val t.isLt; isplitr; · ipureintro; exact fun _ _ => rfl
    iframe
  iframe Ho H0 H1
  iapply (leaves5_2 V c t d2)
  iexact H2

theorem hin5 (c : Dev nD) : (Pipeline.ΦA spec5 c : sProp 𝕄) ⊢ (dat5 V c).Φ 0 := by
  rw [PhiA5_eq, Phi5_eq]; unfold Phi5
  iintro ⟨⟨⟨%a, HS⟩, HR⟩, Hg⟩
  iexists a; isplitr; · ipureintro; exact fun _ h => absurd rfl h
  iframe

theorem hout5 (c : Dev nD) : (dat5 V c).Φ (Fin.last cfg5.N) ⊢ (Pipeline.ΦA spec5 c : sProp 𝕄) := by
  rw [PhiA5_eq, Phi5_eq]; unfold Phi5
  iintro ⟨%b, -, HS, HR, Hg⟩
  iframe HR Hg
  iexists b; iexact HS

end Cert.Kernel.Hand

end
-- ==== Proof.KernelBits.R6.lean ====
import proofs.«100585_j72756745994352_1_alg».proof.Proof.Gen.Kernel.Launch
import proofs.«100585_j72756745994352_1_alg».proof.Proof.Gen.Kernel.Skeleton
import proofs.«100585_j72756745994352_1_alg».proof.Proof.Gen.Kernel.Points
import proofs.«100585_j72756745994352_1_alg».proof.Proof.LibBody
import Idealize.ShloMosaic.Lib.Pipeline.RegionsLoop
import Idealize.ShloMosaic.Lib.Pipeline.FrameSuffix
import Idealize.ShloMosaic.Lib.Ring

noncomputable section

namespace Cert.Kernel.Hand

open Cert.Kernel Cert.Kernel.Gen Cert.LibBody
open Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem

variable {F : FTy → Type} [FloatOps F]

variable (V : (c : Dev nD) → (b : Ref sig .tc) → Buf (Elt F) ((c : Thread nD τ).loc b))
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => k6_pay1 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := rfl

theorem after6_3 (c : Dev nD) (t : Fin cfg6.N) :
    (dat6 V c).after 3 t = k6_pay1 (iblk6 V c 0 t) (iblk6 V c 1 t) (iblk6 V c 2 t) := rfl

-- For an input window the contents before a point are the window's block, which is also what the body leaves.
theorem before6_in (c : Dev nD) : ∀ w : Fin cfg6.W, (cfg6.win w).isOut = false → ∀ t d, (dat6 V c).before w t d = (dat6 V c).after w t
  | 0, _, t, d | 1, _, t, d | 2, _, t, d =>
    ((dat6 V c).before_in_eq_fetched _ rfl (fun _ => rfl) (fun _ _ _ => rfl) (fun _ => rfl) t d).trans rfl
  | 3, h, _, _ => absurd h (by decide)

-- One store through the whole output rectangle decides what it reads as; the inputs are only read.
theorem body_obligation6 (c : Dev nD) : BodyObligation (dat6 (F := F) V c) (defs₀ (F := F)) Variants.none () Set.univ := fun t => by
  rw [bigSep_W6, bigSep_W6]
  show _ ⊢ wp _ _ _ (bodyAt6 t) _
  simp only [before6_in V c 0 rfl, before6_in V c 1 rfl, before6_in V c 2 rfl, bodyAt6, cc6__linear_body_eq_skeleton,
    show (dat6 V c).Φ t.succ = (dat6 V c).Φ t.castSucc from rfl, show (dat6 V c).owesAt () t.succ = (dat6 V c).owesAt () t.castSucc from rfl]
  unfold cc6__linear_body_skel owns
  iintro ⟨HΦ, Ho, ⟨%_, %f0, %h0, H0⟩, ⟨%_, %f1, %h1, H1⟩, ⟨%_, %f2, %h2, H2⟩, ⟨%_, %f3, -, H3⟩⟩
  sl_exec
  sl_step
  iframe HΦ Ho
  isplitl [H0]; · iexists f0; iframe %h0 H0
  isplitl [H1]; · iexists f1; iframe %h1 H1
  isplitl [H2]; · iexists f2; iframe %h2 H2
  iexists _; iframe; ipureintro
  exact (read_store_top _ _ origin2 _ _ _).trans (congr (congr (congrArg k6_pay1 ((load_top _ _ origin2 _).trans h0))
    ((load_top _ _ origin2 _).trans h1)) ((load_top _ _ origin2 _).trans h2))

end Cert.Kernel.Hand

end
-- ==== Proof.KernelBits.R7.lean ====
import proofs.«100585_j72756745994352_1_alg».proof.Proof.Gen.Kernel.Launch
import proofs.«100585_j72756745994352_1_alg».proof.Proof.Gen.Kernel.Skeleton
import proofs.«100585_j72756745994352_1_alg».proof.Proof.Gen.Kernel.Points
import proofs.«100585_j72756745994352_1_alg».proof.Proof.LibBody
import Idealize.ShloMosaic.Lib.Pipeline.RegionsLoop
import Idealize.ShloMosaic.Lib.Pipeline.FrameSuffix
import Idealize.ShloMosaic.Lib.Ring

noncomputable section

namespace Cert.Kernel.Hand

open Cert.Kernel Cert.Kernel.Gen Cert.LibBody
open Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem

variable {F : FTy → Type} [FloatOps F]

variable (V : (c : Dev nD) → (b : Ref sig .tc) → Buf (Elt F) ((c : Thread nD τ).loc b))
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => k7_pay1 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := rfl

theorem after7_2 (c : Dev nD) (t : Fin cfg7.N) :
    (dat7 V c).after 2 t = k7_pay1 (iblk7 V c 0 t) (iblk7 V c 1 t) := rfl

-- For an input window the contents before a point are the window's block, which is also what the body leaves.
theorem before7_in (c : Dev nD) : ∀ w : Fin cfg7.W, (cfg7.win w).isOut = false → ∀ t d, (dat7 V c).before w t d = (dat7 V c).after w t
  | 0, _, t, d | 1, _, t, d =>
    ((dat7 V c).before_in_eq_fetched _ rfl (fun _ => rfl) (fun _ _ _ => rfl) (fun _ => rfl) t d).trans rfl
  | 2, h, _, _ => absurd h (by decide)

-- One store through the whole output rectangle decides what it reads as; the inputs are only read.
theorem body_obligation7 (c : Dev nD) : BodyObligation (dat7 (F := F) V c) (defs₀ (F := F)) Variants.none () Set.univ := fun t => by
  rw [bigSep_W7, bigSep_W7]
  show _ ⊢ wp _ _ _ (bodyAt7 t) _
  simp only [before7_in V c 0 rfl, before7_in V c 1 rfl, bodyAt7, cc7__pred_body_eq_skeleton,
    show (dat7 V c).Φ t.succ = (dat7 V c).Φ t.castSucc from rfl, show (dat7 V c).owesAt () t.succ = (dat7 V c).owesAt () t.castSucc from rfl]
  unfold cc7__pred_body_skel owns
  iintro ⟨HΦ, Ho, ⟨%_, %f0, %h0, H0⟩, ⟨%_, %f1, %h1, H1⟩, ⟨%_, %f2, -, H2⟩⟩
  sl_exec
  sl_step
  iframe HΦ Ho
  isplitl [H0]; · iexists f0; iframe %h0 H0
  isplitl [H1]; · iexists f1; iframe %h1 H1
  iexists _; iframe; ipureintro
  exact (read_store_top _ _ origin2 _ _ _).trans (congrArg₂ k7_pay1 ((load_top _ _ origin2 _).trans h0) ((load_top _ _ origin2 _).trans h1))

end Cert.Kernel.Hand

end
-- ==== Proof.KernelBits.Fold.lean ====
import proofs.«100585_j72756745994352_1_alg».proof.Proof.Gen.Kernel.Launch
import proofs.«100585_j72756745994352_1_alg».proof.Proof.Gen.Kernel.Skeleton
import proofs.«100585_j72756745994352_1_alg».proof.Proof.Gen.Kernel.Points
import proofs.«100585_j72756745994352_1_alg».proof.Proof.Gen.Kernel.Regions
import proofs.«100585_j72756745994352_1_alg».proof.Proof.KernelBits.R0
import proofs.«100585_j72756745994352_1_alg».proof.Proof.KernelBits.R1
import proofs.«100585_j72756745994352_1_alg».proof.Proof.KernelBits.R2
import proofs.«100585_j72756745994352_1_alg».proof.Proof.KernelBits.R3
import proofs.«100585_j72756745994352_1_alg».proof.Proof.KernelBits.R4
import proofs.«100585_j72756745994352_1_alg».proof.Proof.KernelBits.R5
import proofs.«100585_j72756745994352_1_alg».proof.Proof.KernelBits.R6
import proofs.«100585_j72756745994352_1_alg».proof.Proof.KernelBits.R7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe
open Idealize.ShloMosaic.Pipeline (Dat Cfg)

variable {F : FTy → Type} [FloatOps F]
variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
def W3 (c : Dev nD) : Valuation τ sig (Elt F) :=
  Pipeline.withArrays spec1 c (W2 m ρ c) fun w => (dat1 (V2 m ρ) c).arrAt w cfg1.N
abbrev V3 : (c : Dev nD) → (b : Ref sig .tc) → Buf (Elt F) ((c : Thread nD τ).loc b) := fun c b => W3 m ρ c b
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
def W5 (c : Dev nD) : Valuation τ sig (Elt F) :=
  Pipeline.withArrays spec2 c (W4 m ρ c) fun w => (dat2 (V4 m ρ) c).arrAt w cfg2.N
abbrev V5 : (c : Dev nD) → (b : Ref sig .tc) → Buf (Elt F) ((c : Thread nD τ).loc b) := fun c b => W5 m ρ c b
def W6 (c : Dev nD) : Valuation τ sig (Elt F) :=
  Pipeline.withArrays spec3 c (W5 m ρ c) fun w => (dat3 (V5 m ρ) c).arrAt w cfg3.N
abbrev V6 : (c : Dev nD) → (b : Ref sig .tc) → Buf (Elt F) ((c : Thread nD τ).loc b) := fun c b => W6 m ρ c b
abbrev W7 : Dev nD → Valuation τ sig (Elt F) := fun c => StableHlo.after hostOps4 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec4 c (W7 m ρ c) fun w => (dat4 (V7 m ρ) c).arrAt w cfg4.N
abbrev V8 : (c : Dev nD) → (b : Ref sig .tc) → Buf (Elt F) ((c : Thread nD τ).loc b) := fun c b => W8 m ρ c b
def W9 (c : Dev nD) : Valuation τ sig (Elt F) :=
  Pipeline.withArrays spec5 c (W8 m ρ c) fun w => (dat5 (V8 m ρ) c).arrAt w cfg5.N
abbrev V9 : (c : Dev nD) → (b : Ref sig .tc) → Buf (Elt F) ((c : Thread nD τ).loc b) := fun c b => W9 m ρ c b
def W10 (c : Dev nD) : Valuation τ sig (Elt F) :=
  Pipeline.withArrays spec6 c (W9 m ρ c) fun w => (dat6 (V9 m ρ) c).arrAt w cfg6.N
abbrev V10 : (c : Dev nD) → (b : Ref sig .tc) → Buf (Elt F) ((c : Thread nD τ).loc b) := fun c b => W10 m ρ c b
def W11 (c : Dev nD) : Valuation τ sig (Elt F) :=
  Pipeline.withArrays spec7 c (W10 m ρ c) fun w => (dat7 (V10 m ρ) c).arrAt w cfg7.N
abbrev V11 : (c : Dev nD) → (b : Ref sig .tc) → Buf (Elt F) ((c : Thread nD τ).loc b) := fun c b => W11 m ρ c b
abbrev W12 : Dev nD → Valuation τ sig (Elt F) := fun c => StableHlo.after hostOps8 (W11 m ρ c)
abbrev V12 : (c : Dev nD) → (b : Ref sig .tc) → Buf (Elt F) ((c : Thread nD τ).loc b) := fun c b => W12 m ρ c b

/-- The valuation changes only at the windows' arrays, and an input window's array ends at its entry contents. -/
theorem withArrays_keep {cfg : Cfg sig Λ₀} {c : Dev nD} (d : Dat τ (Elt F) Unit ℕ (UR sig nD τ) ℕ cfg c)
    (hinj : Function.Injective (Pipeline.arrRef cfg.spec)) (V : Valuation τ sig (Elt F))
    (hA : ∀ w, d.A w = V (Proc.devRef .tc (Pipeline.arrRef cfg.spec w))) (n : ℕ) {r : Ref sig .tc}
    (h : ∀ w, Pipeline.arrRef cfg.spec w = r → (cfg.win w).isOut = false) :
    Pipeline.withArrays cfg.spec c V (fun w => d.arrAt w n) (Proc.devRef .tc r) = V (Proc.devRef .tc r) := by
  by_cases hr : ∃ w, Pipeline.arrRef cfg.spec w = r
  · obtain ⟨w, rfl⟩ := hr
    exact (Pipeline.withArrays_arr cfg.spec hinj c V _ w).trans ((d.arrAt_in w (h w rfl) n).trans (hA w))
  · exact Pipeline.withArrays_of_ne cfg.spec c V _ r fun w e => hr ⟨w, e⟩

section
variable {m ρ} {c : Dev nD} {r : Ref sig .tc}
theorem W1_keep (h : r ∉ hostOps0_W) : W1 m ρ c (Proc.devRef .tc r) = W0 m ρ c (Proc.devRef .tc r) :=
  StableHlo.after_of_writes_sub hostOps0 _ hostOps0_writes h
theorem W2_keep (h : ∀ w, Pipeline.arrRef spec0 w = r → (cfg0.win w).isOut = false) :
    W2 m ρ c (Proc.devRef .tc r) = W1 m ρ c (Proc.devRef .tc r) :=
  withArrays_keep (dat0 (V1 m ρ) c) launch0.win.arr_inj _ (A_eq0 (V1 m ρ) c) _ h
theorem W3_keep (h : ∀ w, Pipeline.arrRef spec1 w = r → (cfg1.win w).isOut = false) :
    W3 m ρ c (Proc.devRef .tc r) = W2 m ρ c (Proc.devRef .tc r) :=
  withArrays_keep (dat1 (V2 m ρ) c) launch1.win.arr_inj _ (A_eq1 (V2 m ρ) c) _ h
theorem W4_keep (h : r ∉ hostOps2_W) : W4 m ρ c (Proc.devRef .tc r) = W3 m ρ c (Proc.devRef .tc r) :=
  StableHlo.after_of_writes_sub hostOps2 _ hostOps2_writes h
theorem W5_keep (h : ∀ w, Pipeline.arrRef spec2 w = r → (cfg2.win w).isOut = false) :
    W5 m ρ c (Proc.devRef .tc r) = W4 m ρ c (Proc.devRef .tc r) :=
  withArrays_keep (dat2 (V4 m ρ) c) launch2.win.arr_inj _ (A_eq2 (V4 m ρ) c) _ h
theorem W6_keep (h : ∀ w, Pipeline.arrRef spec3 w = r → (cfg3.win w).isOut = false) :
    W6 m ρ c (Proc.devRef .tc r) = W5 m ρ c (Proc.devRef .tc r) :=
  withArrays_keep (dat3 (V5 m ρ) c) launch3.win.arr_inj _ (A_eq3 (V5 m ρ) c) _ h
theorem W7_keep (h : r ∉ hostOps4_W) : W7 m ρ c (Proc.devRef .tc r) = W6 m ρ c (Proc.devRef .tc r) :=
  StableHlo.after_of_writes_sub hostOps4 _ hostOps4_writes h
theorem W8_keep (h : ∀ w, Pipeline.arrRef spec4 w = r → (cfg4.win w).isOut = false) :
    W8 m ρ c (Proc.devRef .tc r) = W7 m ρ c (Proc.devRef .tc r) :=
  withArrays_keep (dat4 (V7 m ρ) c) launch4.win.arr_inj _ (A_eq4 (V7 m ρ) c) _ h
theorem W9_keep (h : ∀ w, Pipeline.arrRef spec5 w = r → (cfg5.win w).isOut = false) :
    W9 m ρ c (Proc.devRef .tc r) = W8 m ρ c (Proc.devRef .tc r) :=
  withArrays_keep (dat5 (V8 m ρ) c) launch5.win.arr_inj _ (A_eq5 (V8 m ρ) c) _ h
theorem W10_keep (h : ∀ w, Pipeline.arrRef spec6 w = r → (cfg6.win w).isOut = false) :
    W10 m ρ c (Proc.devRef .tc r) = W9 m ρ c (Proc.devRef .tc r) :=
  withArrays_keep (dat6 (V9 m ρ) c) launch6.win.arr_inj _ (A_eq6 (V9 m ρ) c) _ h
theorem W11_keep (h : ∀ w, Pipeline.arrRef spec7 w = r → (cfg7.win w).isOut = false) :
    W11 m ρ c (Proc.devRef .tc r) = W10 m ρ c (Proc.devRef .tc r) :=
  withArrays_keep (dat7 (V10 m ρ) c) launch7.win.arr_inj _ (A_eq7 (V10 m ρ) c) _ h
theorem W12_keep (h : r ∉ hostOps8_W) : W12 m ρ c (Proc.devRef .tc r) = W11 m ρ c (Proc.devRef .tc r) :=
  StableHlo.after_of_writes_sub hostOps8 _ hostOps8_writes h
end

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.KernelBits.Run.lean ====
import proofs.«100585_j72756745994352_1_alg».proof.Proof.Gen.Kernel.Launch
import proofs.«100585_j72756745994352_1_alg».proof.Proof.Gen.Kernel.Skeleton
import proofs.«100585_j72756745994352_1_alg».proof.Proof.Gen.Kernel.Points
import proofs.«100585_j72756745994352_1_alg».proof.Proof.Gen.Kernel.Regions
import proofs.«100585_j72756745994352_1_alg».proof.Proof.KernelBits.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 8) → (pcfgs (F := F) p).Adm := fun p => (cfgs p).toPCfg_adm
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
  | ⟨4, _⟩ => fun c => dat4 (V7 m ρ) c
  | ⟨5, _⟩ => fun c => dat5 (V8 m ρ) c
  | ⟨6, _⟩ => fun c => dat6 (V9 m ρ) c
  | ⟨7, _⟩ => fun c => dat7 (V10 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W12 m ρ c) ∗ ∃ r, prngReg c r)

set_option backward.isDefEq.respectTransparency.types false in
/-- Region `p` takes its arrays from their contents at entry to their contents at exit and hands everything else through unchanged. -/
def mkReg (pd : (p : Fin 8) → (c : Dev nD) → Dat τ (Elt F) Unit ℕ (UR sig nD τ) ℕ (Pipeline.pin (pcfgs (F := F)) adm p) c)
    (p : Fin 8) (la : Pipeline.LaunchFacts (nD := nD) (τ := τ) cfgs p) (Win : Dev nD → Valuation τ sig (Elt F))
    (hb : ∀ c, BodyObligation (pd p c) (defs₀ (F := F)) Variants.none () Set.univ)
    (hi : ∀ c, (Pipeline.ΦA (Pipeline.pin (pcfgs (F := F)) adm p).spec c : sProp 𝕄) ⊢ (pd p c).Φ 0 := by exact fun _ => .rfl)
    (ho : ∀ c, (pd p c).Φ (Fin.last (Pipeline.pin (pcfgs (F := F)) adm p).N) ⊢ (Pipeline.ΦA (Pipeline.pin (pcfgs (F := F)) adm p).spec c : sProp 𝕄) := by exact fun _ => .rfl)
    (hA : ∀ c w, (pd p c).A w = Win c (Proc.devRef .tc (Pipeline.arrRef (Pipeline.pin (pcfgs (F := F)) adm p).spec w)) := by exact fun _ _ => rfl)
    (hq : ∀ c w, (pd p c).q w = fullShare := by exact fun _ _ => rfl)
    (how : ∀ c t, (pd p c).owed t = 0 := by exact fun _ _ => rfl)
    (hrec : ∀ c t, (pd p c).recorded t = Set.univ := by exact fun _ _ => rfl) :
    Pipeline.RegionSeg (pcfgs (F := F)) adm pd () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p how
  pre c := iprop(StableHlo.held (c : Thread nD τ) (Pipeline.ucRefs τ sig) (Win c) ∗ R c)
  post c := iprop(StableHlo.held (c : Thread nD τ) (Pipeline.ucRefs τ sig)
    (Pipeline.withArrays (Pipeline.pin (pcfgs (F := F)) adm p).spec c (Win c) fun w => (pd p c).arrAt w (Pipeline.pin (pcfgs (F := F)) adm p).N) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c fun b => Win c b
  hentry c := by
    rw [Pipeline.ownSems0_none]
    have hsplit := Pipeline.arrays_of_unscopedBufs (p := p) (pcfgs (F := F)) adm pd la.win la.arr_whole c
      ((pd p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [how c]; icases HO with ⟨%W, HO⟩; iexists W; isplitr; · ipureintro; exact fun _ _ => Or.inl (hrec c 0 ▸ trivial)
      iexact HO
    isplitl [Hp]; · iexact Hp
    iexact Hrest
  hin c := by
    have h := hi c
    unfold Pipeline.ΦA at h
    iintro ⟨Hp, -, Hr⟩
    iapply h
    isplitl [Hr]; · iexact Hr
    iexact Hp
  hout c := by
    have h := ho c
    unfold Pipeline.ΦA at h
    rw [Pipeline.ownSems0_none]
    iintro Hq
    ihave H := h $$ Hq
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c pd ((pd p c).share_full (hq c))
      (fun b => Win c b) (fun b => Pipeline.withArrays (Pipeline.pin (pcfgs (F := F)) adm p).spec c (Win c) (fun w => (pd p c).arrAt w (Pipeline.pin (pcfgs (F := F)) adm p).N) b)
      ((pd p c).arrAt · (Pipeline.pin (pcfgs (F := F)) adm p).N)
      (fun w => (Pipeline.withArrays_arr (Pipeline.pin (pcfgs (F := F)) adm p).spec la.win.arr_inj c (Win c) (fun w => (pd p c).arrAt w (Pipeline.pin (pcfgs (F := F)) adm p).N) w).symm)
      (fun b hb => Pipeline.withArrays_of_ne (Pipeline.pin (pcfgs (F := F)) adm p).spec c (Win c) (fun w => (pd p c).arrAt w (Pipeline.pin (pcfgs (F := F)) adm p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [how c]
    icases HO with ⟨%W, -, HO⟩; iexists W; iexact HO

set_option backward.isDefEq.respectTransparency.types false in
abbrev segs : List (Pipeline.Seg (pcfgs (F := F)) adm (pdats m ρ) () defs₀ 𝒱₀ L lv) :=
  [ .host (hseg hostOps0 hostOps0_sub hostOps0_fresh (W0 m ρ)),
    .region (mkReg (pdats m ρ) 0 launch0 (W1 m ρ) (body_obligation0 (V1 m ρ))),
    .region (mkReg (pdats m ρ) 1 launch1 (W2 m ρ) (body_obligation1 (V2 m ρ)) (hin1 (V2 m ρ)) (hout1 (V2 m ρ))),
    .host (hseg hostOps2 hostOps2_sub hostOps2_fresh (W3 m ρ)),
    .region (mkReg (pdats m ρ) 2 launch2 (W4 m ρ) (body_obligation2 (V4 m ρ))),
    .region (mkReg (pdats m ρ) 3 launch3 (W5 m ρ) (body_obligation3 (V5 m ρ)) (hin3 (V5 m ρ)) (hout3 (V5 m ρ))),
    .host (hseg hostOps4 hostOps4_sub hostOps4_fresh (W6 m ρ)),
    .region (mkReg (pdats m ρ) 4 launch4 (W7 m ρ) (body_obligation4 (V7 m ρ))),
    .region (mkReg (pdats m ρ) 5 launch5 (W8 m ρ) (body_obligation5 (V8 m ρ)) (hin5 (V8 m ρ)) (hout5 (V8 m ρ))),
    .region (mkReg (pdats m ρ) 6 launch6 (W9 m ρ) (body_obligation6 (V9 m ρ))),
    .region (mkReg (pdats m ρ) 7 launch7 (W10 m ρ) (body_obligation7 (V10 m ρ))),
    .host (hseg hostOps8 hostOps8_sub hostOps8_fresh (W11 m ρ)) ]
theorem main_run (c : Dev nD) : main (F := F) c = Pipeline.Seg.run (segs m ρ) := (main_chain c).trans (by chain_rfl)
set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl,
      fun _ => Laws.sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- A reference that no host stretch writes and that is no output window's array ends as launched. -/
theorem W12_arg (c : Dev nD) (r : Ref sig .tc)
    (h : r ∉ hostOps0_W ∧ r ∉ hostOps2_W ∧ r ∉ hostOps4_W ∧ r ∉ hostOps8_W
      ∧ ∀ p : Fin 8, ∀ w, Pipeline.arrRef (cfgs p).spec w = r → ((cfgs p).win w).isOut = false) :
    W12 m ρ c (Proc.devRef .tc r) = m ((c : Thread nD τ).loc r) :=
  (W12_keep h.2.2.2.1).trans <| (W11_keep (h.2.2.2.2 7)).trans <| (W10_keep (h.2.2.2.2 6)).trans <|
  (W9_keep (h.2.2.2.2 5)).trans <| (W8_keep (h.2.2.2.2 4)).trans <| (W7_keep h.2.2.1).trans <|
  (W6_keep (h.2.2.2.2 3)).trans <| (W5_keep (h.2.2.2.2 2)).trans <| (W4_keep h.2.1).trans <|
  (W3_keep (h.2.2.2.2 1)).trans <| (W2_keep (h.2.2.2.2 0)).trans <| W1_keep h.1
theorem W12_main_arg0 (c : Dev nD) : W12 m ρ c (Proc.devRef .tc main_arg0) = m ((c : Thread nD τ).loc main_arg0) :=
  W12_arg m ρ c _ (by decide)
theorem W12_main_arg1 (c : Dev nD) : W12 m ρ c (Proc.devRef .tc main_arg1) = m ((c : Thread nD τ).loc main_arg1) :=
  W12_arg m ρ c _ (by decide)
theorem W12_main_arg2 (c : Dev nD) : W12 m ρ c (Proc.devRef .tc main_arg2) = m ((c : Thread nD τ).loc main_arg2) :=
  W12_arg m ρ c _ (by decide)
theorem W12_main_arg3 (c : Dev nD) : W12 m ρ c (Proc.devRef .tc main_arg3) = m ((c : Thread nD τ).loc main_arg3) :=
  W12_arg m ρ c _ (by decide)
theorem W12_main_arg4 (c : Dev nD) : W12 m ρ c (Proc.devRef .tc main_arg4) = m ((c : Thread nD τ).loc main_arg4) :=
  W12_arg m ρ c _ (by decide)
theorem W12_main_arg5 (c : Dev nD) : W12 m ρ c (Proc.devRef .tc main_arg5) = m ((c : Thread nD τ).loc main_arg5) :=
  W12_arg m ρ c _ (by decide)
theorem W12_main_arg6 (c : Dev nD) : W12 m ρ c (Proc.devRef .tc main_arg6) = m ((c : Thread nD τ).loc main_arg6) :=
  W12_arg m ρ c _ (by decide)
theorem W12_main_arg7 (c : Dev nD) : W12 m ρ c (Proc.devRef .tc main_arg7) = m ((c : Thread nD τ).loc main_arg7) :=
  W12_arg m ρ c _ (by decide)
theorem W12_main_arg8 (c : Dev nD) : W12 m ρ c (Proc.devRef .tc main_arg8) = m ((c : Thread nD τ).loc main_arg8) :=
  W12_arg m ρ c _ (by decide)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c)⟩) (run_all m ρ)

end Cert.Kernel.Hand

end
-- ==== Proof.R0.lean ====
import proofs.«100585_j72756745994352_1_alg».proof.Proof.Gen.KernelIdeal.Launch
import proofs.«100585_j72756745994352_1_alg».proof.Proof.Gen.KernelIdeal.Skeleton
import proofs.«100585_j72756745994352_1_alg».proof.Proof.Gen.KernelIdeal.Points
import proofs.«100585_j72756745994352_1_alg».proof.Proof.LibBody
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal Cert.KernelIdeal.Gen Cert.LibBody
open Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem

variable {F : FTy → Type} [FloatOps F]

variable (V : (c : Dev nD) → (b : Ref sig .tc) → Buf (Elt F) ((c : Thread nD τ).loc b))
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) :
    (dat0 V c).after 3 t = k0_pay1 (iblk0 V c 0 t) (iblk0 V c 1 t) (iblk0 V c 2 t) := rfl

-- For an input window the contents before a point are the window's block, which is also what the body leaves.
theorem before0_in (c : Dev nD) : ∀ w : Fin cfg0.W, (cfg0.win w).isOut = false → ∀ t d, (dat0 V c).before w t d = (dat0 V c).after w t
  | 0, _, t, d | 1, _, t, d | 2, _, t, d =>
    ((dat0 V c).before_in_eq_fetched _ rfl (fun _ => rfl) (fun _ _ _ => rfl) (fun _ => rfl) t d).trans rfl
  | 3, h, _, _ => absurd h (by decide)

-- One store through the whole output rectangle decides what it reads as; the inputs are only read.
theorem body_obligation0 (c : Dev nD) : BodyObligation (dat0 (F := F) V c) (defs₀ (F := F)) Variants.none () Set.univ := fun t => by
  rw [bigSep_W0, bigSep_W0]
  show _ ⊢ wp _ _ _ (bodyAt0 t) _
  simp only [before0_in V c 0 rfl, before0_in V c 1 rfl, before0_in V c 2 rfl, bodyAt0, cc0__linear_body_eq_skeleton,
    show (dat0 V c).Φ t.succ = (dat0 V c).Φ t.castSucc from rfl, show (dat0 V c).owesAt () t.succ = (dat0 V c).owesAt () t.castSucc from rfl]
  unfold cc0__linear_body_skel owns
  iintro ⟨HΦ, Ho, ⟨%_, %f0, %h0, H0⟩, ⟨%_, %f1, %h1, H1⟩, ⟨%_, %f2, %h2, H2⟩, ⟨%_, %f3, -, H3⟩⟩
  sl_exec
  sl_step
  iframe HΦ Ho
  isplitl [H0]; · iexists f0; iframe %h0 H0
  isplitl [H1]; · iexists f1; iframe %h1 H1
  isplitl [H2]; · iexists f2; iframe %h2 H2
  iexists _; iframe; ipureintro
  exact (read_store_top _ _ origin2 _ _ _).trans (congr (congr (congrArg k0_pay1 ((load_top _ _ origin2 _).trans h0))
    ((load_top _ _ origin2 _).trans h1)) ((load_top _ _ origin2 _).trans h2))

end Cert.KernelIdeal.Hand

end
-- ==== Proof.R1.lean ====
import proofs.«100585_j72756745994352_1_alg».proof.Proof.Gen.KernelIdeal.Launch
import proofs.«100585_j72756745994352_1_alg».proof.Proof.Gen.KernelIdeal.Skeleton
import proofs.«100585_j72756745994352_1_alg».proof.Proof.Gen.KernelIdeal.Points
import proofs.«100585_j72756745994352_1_alg».proof.Proof.LibBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond1_0 (i : grid1.Coords) : Prop :=
  (Scalar.cmpi .ne (Scalar.extui (Scalar.cmpi .eq (BitVec.ofNat 32 (i 1).val) 0#32)) 0#32) = 1#1

theorem hcond1_0 : ∀ t : Fin cfg1.N, cond1_0 (grid1.coords t) ↔ t.val % 4 = 0 := by decide +kernel

abbrev cond1_1 (i : grid1.Coords) : Prop := k1_cond2 i = 1#1

theorem excl1 : ∀ t : Fin cfg1.N, cond1_0 (grid1.coords t) → ¬cond1_1 (grid1.coords t) := by decide +kernel

-- The accumulator is reset where the first condition holds, then stepped; the output is stored where the second holds.
theorem run1 {c : Dev nD} {E : Set ℕ} {i : grid1.Coords} {arg2 harg2 arg3 harg3 arg4 harg4 arg5 harg5 x0 x1 s b} (d)
    (hx : cond1_0 i → ¬cond1_1 i) (hs : s = k1_pay2 (if cond1_0 i then k1_pay1 (F := F) else b) x0 x1) {K : PUnit → sProp 𝕄} :
    iprop(owns c.tc arg2 fullShare x0 ∗ owns c.tc arg3 fullShare x1
        ∗ owns c.tc arg4 fullShare d ∗ owns c.tc arg5 fullShare b
        ∗ (iprop(owns c.tc arg2 fullShare x0 ∗ owns c.tc arg3 fullShare x1
            ∗ owns c.tc arg4 fullShare (if cond1_1 i then k1_pay3 s else d)
            ∗ owns c.tc arg5 fullShare s) -∗ K ⟨⟩))
      ⊢ wp frame (wpE (defs₀ (F := F)) Variants.none c.tc none) E (cc1__spmm_body i arg2 harg2 arg3 harg3 arg4 harg4 arg5 harg5) K := by
  subst hs
  by_cases hc0 : cond1_0 i <;> by_cases hc1 : cond1_1 i
  · exact absurd hc1 (hx hc0)
  all_goals
    first | rw [if_pos hc0] | rw [if_neg hc0]
    first | rw [if_pos hc1] | rw [if_neg hc1]
    simp only [cc1__spmm_body_eq_skeleton]; unfold cc1__spmm_body_skel owns
    iintro ⟨⟨%f0, %hf0, H0⟩, ⟨%f1, %hf1, H1⟩, ⟨%fd, %hfd, HD⟩, ⟨%fb, %hfb, HA⟩, Hk⟩
    subst hf0 hf1 hfd hfb
    sl_exec (disch := first | exact hc0 | exact hc1)
    sl_step
    iapply Hk
    isplitl [H0]; swap; isplitl [H1]; swap; isplitl [HD]
    all_goals
      iexists _; isplitr
      swap; · iassumption
      ipureintro
      try sl_unfold_run_names
      repeat (first | rewrite [LibBody.read_store_top] | rewrite [View.readCov_unit_zero] | rewrite [LibBody.load_top])
      all_goals first | rfl | exact LibBody.origin2

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def acc1 (c : Dev nD) : (n : ℕ) → n < cfg1.N → Vec F S1024x512 .f32
  | 0, h => k1_pay2 (k1_pay1 (F := F)) (iblk1 V c 0 ⟨0, h⟩) (iblk1 V c 1 ⟨0, h⟩)
  | n + 1, h =>
    if (n + 1) % 4 = 0 then k1_pay2 (k1_pay1 (F := F)) (iblk1 V c 0 ⟨n + 1, h⟩) (iblk1 V c 1 ⟨n + 1, h⟩)
    else k1_pay2 (acc1 c n (Nat.lt_of_succ_lt h)) (iblk1 V c 0 ⟨n + 1, h⟩) (iblk1 V c 1 ⟨n + 1, h⟩)

theorem acc1_reset (c : Dev nD) (t : Fin cfg1.N) (h : t.val % 4 = 0) :
    acc1 V c t.val t.isLt = k1_pay2 (k1_pay1 (F := F)) (iblk1 V c 0 t) (iblk1 V c 1 t) := by
  obtain ⟨n, hn⟩ := t
  cases n with
  | zero => rfl
  | succ n => exact if_pos h

theorem acc1_step (c : Dev nD) (t : Fin cfg1.N) (h : t.val % 4 ≠ 0) :
    acc1 V c t.val t.isLt
      = k1_pay2 (acc1 V c (t.val - 1) (Nat.lt_of_le_of_lt (Nat.sub_le _ _) t.isLt)) (iblk1 V c 0 t) (iblk1 V c 1 t) := by
  obtain ⟨n, hn⟩ := t
  cases n with
  | zero => exact absurd (Nat.zero_mod 4) h
  | succ n => exact (if_neg h).trans rfl

-- Reset or not, the body's step from what the position before left is the accumulator's value here.
theorem acc1_eq (c : Dev nD) (t : Fin cfg1.N) (b : Vec F S1024x512 .f32) (hb : ∀ h, t.val ≠ 0 → b = acc1 V c (t.val - 1) h) :
    acc1 V c t.val t.isLt
      = k1_pay2 (if cond1_0 (grid1.coords t) then k1_pay1 (F := F) else b) (iblk1 V c 0 t) (iblk1 V c 1 t) := by
  by_cases h0 : t.val % 4 = 0
  · rw [if_pos ((hcond1_0 t).mpr h0), acc1_reset V c t h0]
  · rw [if_neg (mt (hcond1_0 t).mp h0), acc1_step V c t h0, ← hb _ fun h => h0 (by rw [h])]

-- Before position n the accumulator holds something, which past the first position is what the position before left.
def Phi1 (c : Dev nD) (n : ℕ) : sProp 𝕄 :=
  iprop(∃ b, ⌜∀ h, n ≠ 0 → b = acc1 V c (n - 1) h⌝ ∗ owns c.tc (Memref.whole cc1_scratch0) fullShare b
    ∗ Pipeline.scopedRestBut spec1 c [cc1_scratch0] ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := Phi1 V c t.val
  q _ := fullShare
  owed _ := 0

theorem Phi1_eq (c : Dev nD) (t) : (dat1 V c).Φ t = Phi1 V c t.val := rfl

theorem A_eq1 (c : Dev nD) (w : Fin cfg1.W) : (dat1 V c).A w = V c (Pipeline.arrRef spec1 w) := by
  dsimp only [dat1]

theorem after1_2 (c : Dev nD) (t : Fin cfg1.N) :
    (dat1 V c).after 2 t = k1_pay3 (acc1 V c t.val t.isLt) := by dsimp only [dat1]

theorem PhiA1_eq (c : Dev nD) :
    (Pipeline.ΦA spec1 c : sProp 𝕄)
      = iprop(iprop((∃ a, owns c.tc (Memref.whole cc1_scratch0) fullShare a)
          ∗ Pipeline.scopedRestBut spec1 c [cc1_scratch0])
        ∗ (∃ r, prngReg c r)) := by
  unfold Pipeline.ΦA; rw [scopedRest1_split]; simp only [owns_whole]; try rfl

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cond1_1 (grid1.coords t) → cfg1.idle 2 (grid1.coords t) = false := by decide +kernel
theorem idle1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel

-- The output's block after the body: the stored value where the second condition holds, else what it was.
theorem leaves1_2 (c : Dev nD) (t : Fin cfg1.N) (d) :
    owns c.tc (win1_2.stage (cfg1.slots t 2)) fullShare
        (if cond1_1 (grid1.coords t) then k1_pay3 (acc1 V c t.val t.isLt) else (dat1 V c).before 2 t d)
      ⊢ (dat1 V c).leavesExact 2 t := by
  by_cases h3 : cond1_1 (grid1.coords t)
  · rw [if_pos h3, ← after1_2]; unfold Dat.leavesExact; rw [live1_2 t h3]
  · rw [if_neg h3, Dat.leavesExact_idle (dat1 V c) 2 t (idle1_2 t h3) (noFlush1_2 t h3)]
    iintro H; iexists d; iexact H

theorem body_obligation1 (c : Dev nD) : BodyObligation (dat1 (F := F) V c) (defs₀ (F := F)) Variants.none () Set.univ := fun t => by
  rw [bigSep_W1, bigSep_W1]
  show _ ⊢ wp _ _ _ (bodyAt1 t) _
  simp only [(dat1 V c).before_fetched 0 t (fetch1_0 t), (dat1 V c).before_fetched 1 t (fetch1_1 t),
    show ∀ d, (dat1 V c).fetched 0 t d = iblk1 V c 0 t from fun _ => rfl,
    show ∀ d, (dat1 V c).fetched 1 t d = iblk1 V c 1 t from fun _ => rfl, live1_0 t, live1_1 t, bodyAt1, Phi1_eq, Fin.coe_castSucc, Fin.val_succ, Phi1,
    show (dat1 V c).after 0 t = iblk1 V c 0 t from rfl, show (dat1 V c).after 1 t = iblk1 V c 1 t from rfl,
    show (dat1 V c).owesAt () t.succ = (dat1 V c).owesAt () t.castSucc from rfl]
  iintro ⟨⟨%b, %hb, HS, HR, Hg⟩, Ho, ⟨%d0, H0⟩, ⟨%d1, H1⟩, ⟨%d2, H2⟩⟩
  iapply run1 ((dat1 V c).before 2 t d2) (excl1 t) (acc1_eq V c t b hb)
  iframe H0 H1 H2 HS
  iintro ⟨H0, H1, H2, HS⟩
  isplitl [HS HR Hg]
  · iexists acc1 V c t.val t.isLt; isplitr; · ipureintro; exact fun _ _ => rfl
    iframe
  iframe Ho H0 H1
  iapply (leaves1_2 V c t d2)
  iexact H2

theorem hin1 (c : Dev nD) : (Pipeline.ΦA spec1 c : sProp 𝕄) ⊢ (dat1 V c).Φ 0 := by
  rw [PhiA1_eq, Phi1_eq]; unfold Phi1
  iintro ⟨⟨⟨%a, HS⟩, HR⟩, Hg⟩
  iexists a; isplitr; · ipureintro; exact fun _ h => absurd rfl h
  iframe

theorem hout1 (c : Dev nD) : (dat1 V c).Φ (Fin.last cfg1.N) ⊢ (Pipeline.ΦA spec1 c : sProp 𝕄) := by
  rw [PhiA1_eq, Phi1_eq]; unfold Phi1
  iintro ⟨%b, -, HS, HR, Hg⟩
  iframe HR Hg
  iexists b; iexact HS

end Cert.KernelIdeal.Hand

end
-- ==== Proof.R2.lean ====
import proofs.«100585_j72756745994352_1_alg».proof.Proof.Gen.KernelIdeal.Launch
import proofs.«100585_j72756745994352_1_alg».proof.Proof.Gen.KernelIdeal.Skeleton
import proofs.«100585_j72756745994352_1_alg».proof.Proof.Gen.KernelIdeal.Points
import proofs.«100585_j72756745994352_1_alg».proof.Proof.LibBody
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal Cert.KernelIdeal.Gen Cert.LibBody
open Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem

variable {F : FTy → Type} [FloatOps F]

variable (V : (c : Dev nD) → (b : Ref sig .tc) → Buf (Elt F) ((c : Thread nD τ).loc b))
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := rfl

theorem after2_3 (c : Dev nD) (t : Fin cfg2.N) :
    (dat2 V c).after 3 t = k2_pay1 (iblk2 V c 0 t) (iblk2 V c 1 t) (iblk2 V c 2 t) := rfl

-- For an input window the contents before a point are the window's block, which is also what the body leaves.
theorem before2_in (c : Dev nD) : ∀ w : Fin cfg2.W, (cfg2.win w).isOut = false → ∀ t d, (dat2 V c).before w t d = (dat2 V c).after w t
  | 0, _, t, d | 1, _, t, d | 2, _, t, d =>
    ((dat2 V c).before_in_eq_fetched _ rfl (fun _ => rfl) (fun _ _ _ => rfl) (fun _ => rfl) t d).trans rfl
  | 3, h, _, _ => absurd h (by decide)

-- One store through the whole output rectangle decides what it reads as; the inputs are only read.
theorem body_obligation2 (c : Dev nD) : BodyObligation (dat2 (F := F) V c) (defs₀ (F := F)) Variants.none () Set.univ := fun t => by
  rw [bigSep_W2, bigSep_W2]
  show _ ⊢ wp _ _ _ (bodyAt2 t) _
  simp only [before2_in V c 0 rfl, before2_in V c 1 rfl, before2_in V c 2 rfl, bodyAt2, cc2__linear_body_eq_skeleton,
    show (dat2 V c).Φ t.succ = (dat2 V c).Φ t.castSucc from rfl, show (dat2 V c).owesAt () t.succ = (dat2 V c).owesAt () t.castSucc from rfl]
  unfold cc2__linear_body_skel owns
  iintro ⟨HΦ, Ho, ⟨%_, %f0, %h0, H0⟩, ⟨%_, %f1, %h1, H1⟩, ⟨%_, %f2, %h2, H2⟩, ⟨%_, %f3, -, H3⟩⟩
  sl_exec
  sl_step
  iframe HΦ Ho
  isplitl [H0]; · iexists f0; iframe %h0 H0
  isplitl [H1]; · iexists f1; iframe %h1 H1
  isplitl [H2]; · iexists f2; iframe %h2 H2
  iexists _; iframe; ipureintro
  exact (read_store_top _ _ origin2 _ _ _).trans (congr (congr (congrArg k2_pay1 ((load_top _ _ origin2 _).trans h0))
    ((load_top _ _ origin2 _).trans h1)) ((load_top _ _ origin2 _).trans h2))

end Cert.KernelIdeal.Hand

end
-- ==== Proof.R3.lean ====
import proofs.«100585_j72756745994352_1_alg».proof.Proof.Gen.KernelIdeal.Launch
import proofs.«100585_j72756745994352_1_alg».proof.Proof.Gen.KernelIdeal.Skeleton
import proofs.«100585_j72756745994352_1_alg».proof.Proof.Gen.KernelIdeal.Points
import proofs.«100585_j72756745994352_1_alg».proof.Proof.LibBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond3_0 (i : grid3.Coords) : Prop :=
  (Scalar.cmpi .ne (Scalar.extui (Scalar.cmpi .eq (BitVec.ofNat 32 (i 1).val) 0#32)) 0#32) = 1#1

theorem hcond3_0 : ∀ t : Fin cfg3.N, cond3_0 (grid3.coords t) ↔ t.val % 4 = 0 := by decide +kernel

abbrev cond3_1 (i : grid3.Coords) : Prop := k3_cond2 i = 1#1

theorem excl3 : ∀ t : Fin cfg3.N, cond3_0 (grid3.coords t) → ¬cond3_1 (grid3.coords t) := by decide +kernel

-- The accumulator is reset where the first condition holds, then stepped; the output is stored where the second holds.
theorem run3 {c : Dev nD} {E : Set ℕ} {i : grid3.Coords} {arg2 harg2 arg3 harg3 arg4 harg4 arg5 harg5 x0 x1 s b} (d)
    (hx : cond3_0 i → ¬cond3_1 i) (hs : s = k3_pay2 (if cond3_0 i then k3_pay1 (F := F) else b) x0 x1) {K : PUnit → sProp 𝕄} :
    iprop(owns c.tc arg2 fullShare x0 ∗ owns c.tc arg3 fullShare x1
        ∗ owns c.tc arg4 fullShare d ∗ owns c.tc arg5 fullShare b
        ∗ (iprop(owns c.tc arg2 fullShare x0 ∗ owns c.tc arg3 fullShare x1
            ∗ owns c.tc arg4 fullShare (if cond3_1 i then k3_pay3 s else d)
            ∗ owns c.tc arg5 fullShare s) -∗ K ⟨⟩))
      ⊢ wp frame (wpE (defs₀ (F := F)) Variants.none c.tc none) E (cc3__spmm_body i arg2 harg2 arg3 harg3 arg4 harg4 arg5 harg5) K := by
  subst hs
  by_cases hc0 : cond3_0 i <;> by_cases hc1 : cond3_1 i
  · exact absurd hc1 (hx hc0)
  all_goals
    first | rw [if_pos hc0] | rw [if_neg hc0]
    first | rw [if_pos hc1] | rw [if_neg hc1]
    simp only [cc3__spmm_body_eq_skeleton]; unfold cc3__spmm_body_skel owns
    iintro ⟨⟨%f0, %hf0, H0⟩, ⟨%f1, %hf1, H1⟩, ⟨%fd, %hfd, HD⟩, ⟨%fb, %hfb, HA⟩, Hk⟩
    subst hf0 hf1 hfd hfb
    sl_exec (disch := first | exact hc0 | exact hc1)
    sl_step
    iapply Hk
    isplitl [H0]; swap; isplitl [H1]; swap; isplitl [HD]
    all_goals
      iexists _; isplitr
      swap; · iassumption
      ipureintro
      try sl_unfold_run_names
      repeat (first | rewrite [LibBody.read_store_top] | rewrite [View.readCov_unit_zero] | rewrite [LibBody.load_top])
      all_goals first | rfl | exact LibBody.origin2

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (c : Dev nD) : (n : ℕ) → n < cfg3.N → Vec F S1024x256 .f32
  | 0, h => k3_pay2 (k3_pay1 (F := F)) (iblk3 V c 0 ⟨0, h⟩) (iblk3 V c 1 ⟨0, h⟩)
  | n + 1, h =>
    if (n + 1) % 4 = 0 then k3_pay2 (k3_pay1 (F := F)) (iblk3 V c 0 ⟨n + 1, h⟩) (iblk3 V c 1 ⟨n + 1, h⟩)
    else k3_pay2 (acc3 c n (Nat.lt_of_succ_lt h)) (iblk3 V c 0 ⟨n + 1, h⟩) (iblk3 V c 1 ⟨n + 1, h⟩)

theorem acc3_reset (c : Dev nD) (t : Fin cfg3.N) (h : t.val % 4 = 0) :
    acc3 V c t.val t.isLt = k3_pay2 (k3_pay1 (F := F)) (iblk3 V c 0 t) (iblk3 V c 1 t) := by
  obtain ⟨n, hn⟩ := t
  cases n with
  | zero => rfl
  | succ n => exact if_pos h

theorem acc3_step (c : Dev nD) (t : Fin cfg3.N) (h : t.val % 4 ≠ 0) :
    acc3 V c t.val t.isLt
      = k3_pay2 (acc3 V c (t.val - 1) (Nat.lt_of_le_of_lt (Nat.sub_le _ _) t.isLt)) (iblk3 V c 0 t) (iblk3 V c 1 t) := by
  obtain ⟨n, hn⟩ := t
  cases n with
  | zero => exact absurd (Nat.zero_mod 4) h
  | succ n => exact (if_neg h).trans rfl

-- Reset or not, the body's step from what the position before left is the accumulator's value here.
theorem acc3_eq (c : Dev nD) (t : Fin cfg3.N) (b : Vec F S1024x256 .f32) (hb : ∀ h, t.val ≠ 0 → b = acc3 V c (t.val - 1) h) :
    acc3 V c t.val t.isLt
      = k3_pay2 (if cond3_0 (grid3.coords t) then k3_pay1 (F := F) else b) (iblk3 V c 0 t) (iblk3 V c 1 t) := by
  by_cases h0 : t.val % 4 = 0
  · rw [if_pos ((hcond3_0 t).mpr h0), acc3_reset V c t h0]
  · rw [if_neg (mt (hcond3_0 t).mp h0), acc3_step V c t h0, ← hb _ fun h => h0 (by rw [h])]

-- Before position n the accumulator holds something, which past the first position is what the position before left.
def Phi3 (c : Dev nD) (n : ℕ) : sProp 𝕄 :=
  iprop(∃ b, ⌜∀ h, n ≠ 0 → b = acc3 V c (n - 1) h⌝ ∗ owns c.tc (Memref.whole cc3_scratch0) fullShare b
    ∗ Pipeline.scopedRestBut spec3 c [cc3_scratch0] ∗ (∃ r, prngReg c r))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (acc3 V c t.val t.isLt)
  Φ t := Phi3 V c t.val
  q _ := fullShare
  owed _ := 0

theorem Phi3_eq (c : Dev nD) (t) : (dat3 V c).Φ t = Phi3 V c t.val := rfl

theorem A_eq3 (c : Dev nD) (w : Fin cfg3.W) : (dat3 V c).A w = V c (Pipeline.arrRef spec3 w) := by
  dsimp only [dat3]

theorem after3_2 (c : Dev nD) (t : Fin cfg3.N) :
    (dat3 V c).after 2 t = k3_pay3 (acc3 V c t.val t.isLt) := by dsimp only [dat3]

theorem PhiA3_eq (c : Dev nD) :
    (Pipeline.ΦA spec3 c : sProp 𝕄)
      = iprop(iprop((∃ a, owns c.tc (Memref.whole cc3_scratch0) fullShare a)
          ∗ Pipeline.scopedRestBut spec3 c [cc3_scratch0])
        ∗ (∃ r, prngReg c r)) := by
  unfold Pipeline.ΦA; rw [scopedRest3_split]; simp only [owns_whole]; try rfl

theorem live3_0 : ∀ t : Fin cfg3.N, cfg3.idle 0 (grid3.coords t) = false := by decide +kernel
theorem live3_1 : ∀ t : Fin cfg3.N, cfg3.idle 1 (grid3.coords t) = false := by decide +kernel
theorem live3_2 : ∀ t : Fin cfg3.N, cond3_1 (grid3.coords t) → cfg3.idle 2 (grid3.coords t) = false := by decide +kernel
theorem idle3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel

-- The output's block after the body: the stored value where the second condition holds, else what it was.
theorem leaves3_2 (c : Dev nD) (t : Fin cfg3.N) (d) :
    owns c.tc (win3_2.stage (cfg3.slots t 2)) fullShare
        (if cond3_1 (grid3.coords t) then k3_pay3 (acc3 V c t.val t.isLt) else (dat3 V c).before 2 t d)
      ⊢ (dat3 V c).leavesExact 2 t := by
  by_cases h3 : cond3_1 (grid3.coords t)
  · rw [if_pos h3, ← after3_2]; unfold Dat.leavesExact; rw [live3_2 t h3]
  · rw [if_neg h3, Dat.leavesExact_idle (dat3 V c) 2 t (idle3_2 t h3) (noFlush3_2 t h3)]
    iintro H; iexists d; iexact H

theorem body_obligation3 (c : Dev nD) : BodyObligation (dat3 (F := F) V c) (defs₀ (F := F)) Variants.none () Set.univ := fun t => by
  rw [bigSep_W3, bigSep_W3]
  show _ ⊢ wp _ _ _ (bodyAt3 t) _
  simp only [(dat3 V c).before_fetched 0 t (fetch3_0 t), (dat3 V c).before_fetched 1 t (fetch3_1 t),
    show ∀ d, (dat3 V c).fetched 0 t d = iblk3 V c 0 t from fun _ => rfl,
    show ∀ d, (dat3 V c).fetched 1 t d = iblk3 V c 1 t from fun _ => rfl, live3_0 t, live3_1 t, bodyAt3, Phi3_eq, Fin.coe_castSucc, Fin.val_succ, Phi3,
    show (dat3 V c).after 0 t = iblk3 V c 0 t from rfl, show (dat3 V c).after 1 t = iblk3 V c 1 t from rfl,
    show (dat3 V c).owesAt () t.succ = (dat3 V c).owesAt () t.castSucc from rfl]
  iintro ⟨⟨%b, %hb, HS, HR, Hg⟩, Ho, ⟨%d0, H0⟩, ⟨%d1, H1⟩, ⟨%d2, H2⟩⟩
  iapply run3 ((dat3 V c).before 2 t d2) (excl3 t) (acc3_eq V c t b hb)
  iframe H0 H1 H2 HS
  iintro ⟨H0, H1, H2, HS⟩
  isplitl [HS HR Hg]
  · iexists acc3 V c t.val t.isLt; isplitr; · ipureintro; exact fun _ _ => rfl
    iframe
  iframe Ho H0 H1
  iapply (leaves3_2 V c t d2)
  iexact H2

theorem hin3 (c : Dev nD) : (Pipeline.ΦA spec3 c : sProp 𝕄) ⊢ (dat3 V c).Φ 0 := by
  rw [PhiA3_eq, Phi3_eq]; unfold Phi3
  iintro ⟨⟨⟨%a, HS⟩, HR⟩, Hg⟩
  iexists a; isplitr; · ipureintro; exact fun _ h => absurd rfl h
  iframe

theorem hout3 (c : Dev nD) : (dat3 V c).Φ (Fin.last cfg3.N) ⊢ (Pipeline.ΦA spec3 c : sProp 𝕄) := by
  rw [PhiA3_eq, Phi3_eq]; unfold Phi3
  iintro ⟨%b, -, HS, HR, Hg⟩
  iframe HR Hg
  iexists b; iexact HS

end Cert.KernelIdeal.Hand

end
-- ==== Proof.R4.lean ====
import proofs.«100585_j72756745994352_1_alg».proof.Proof.Gen.KernelIdeal.Launch
import proofs.«100585_j72756745994352_1_alg».proof.Proof.Gen.KernelIdeal.Skeleton
import proofs.«100585_j72756745994352_1_alg».proof.Proof.Gen.KernelIdeal.Points
import proofs.«100585_j72756745994352_1_alg».proof.Proof.LibBody
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal Cert.KernelIdeal.Gen Cert.LibBody
open Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem

variable {F : FTy → Type} [FloatOps F]

variable (V : (c : Dev nD) → (b : Ref sig .tc) → Buf (Elt F) ((c : Thread nD τ).loc b))
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k4_pay1 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := rfl

theorem after4_3 (c : Dev nD) (t : Fin cfg4.N) :
    (dat4 V c).after 3 t = k4_pay1 (iblk4 V c 0 t) (iblk4 V c 1 t) (iblk4 V c 2 t) := rfl

-- For an input window the contents before a point are the window's block, which is also what the body leaves.
theorem before4_in (c : Dev nD) : ∀ w : Fin cfg4.W, (cfg4.win w).isOut = false → ∀ t d, (dat4 V c).before w t d = (dat4 V c).after w t
  | 0, _, t, d | 1, _, t, d | 2, _, t, d =>
    ((dat4 V c).before_in_eq_fetched _ rfl (fun _ => rfl) (fun _ _ _ => rfl) (fun _ => rfl) t d).trans rfl
  | 3, h, _, _ => absurd h (by decide)

-- One store through the whole output rectangle decides what it reads as; the inputs are only read.
theorem body_obligation4 (c : Dev nD) : BodyObligation (dat4 (F := F) V c) (defs₀ (F := F)) Variants.none () Set.univ := fun t => by
  rw [bigSep_W4, bigSep_W4]
  show _ ⊢ wp _ _ _ (bodyAt4 t) _
  simp only [before4_in V c 0 rfl, before4_in V c 1 rfl, before4_in V c 2 rfl, bodyAt4, cc4__linear_body_eq_skeleton,
    show (dat4 V c).Φ t.succ = (dat4 V c).Φ t.castSucc from rfl, show (dat4 V c).owesAt () t.succ = (dat4 V c).owesAt () t.castSucc from rfl]
  unfold cc4__linear_body_skel owns
  iintro ⟨HΦ, Ho, ⟨%_, %f0, %h0, H0⟩, ⟨%_, %f1, %h1, H1⟩, ⟨%_, %f2, %h2, H2⟩, ⟨%_, %f3, -, H3⟩⟩
  sl_exec
  sl_step
  iframe HΦ Ho
  isplitl [H0]; · iexists f0; iframe %h0 H0
  isplitl [H1]; · iexists f1; iframe %h1 H1
  isplitl [H2]; · iexists f2; iframe %h2 H2
  iexists _; iframe; ipureintro
  exact (read_store_top _ _ origin2 _ _ _).trans (congr (congr (congrArg k4_pay1 ((load_top _ _ origin2 _).trans h0))
    ((load_top _ _ origin2 _).trans h1)) ((load_top _ _ origin2 _).trans h2))

end Cert.KernelIdeal.Hand

end
-- ==== Proof.R5.lean ====
import proofs.«100585_j72756745994352_1_alg».proof.Proof.Gen.KernelIdeal.Launch
import proofs.«100585_j72756745994352_1_alg».proof.Proof.Gen.KernelIdeal.Skeleton
import proofs.«100585_j72756745994352_1_alg».proof.Proof.Gen.KernelIdeal.Points
import proofs.«100585_j72756745994352_1_alg».proof.Proof.LibBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

abbrev cond5_0 (i : grid5.Coords) : Prop :=
  (Scalar.cmpi .ne (Scalar.extui (Scalar.cmpi .eq (BitVec.ofNat 32 (i 1).val) 0#32)) 0#32) = 1#1

theorem hcond5_0 : ∀ t : Fin cfg5.N, cond5_0 (grid5.coords t) ↔ t.val % 4 = 0 := by decide +kernel

abbrev cond5_1 (i : grid5.Coords) : Prop := k5_cond2 i = 1#1

theorem excl5 : ∀ t : Fin cfg5.N, cond5_0 (grid5.coords t) → ¬cond5_1 (grid5.coords t) := by decide +kernel

-- The accumulator is reset where the first condition holds, then stepped; the output is stored where the second holds.
theorem run5 {c : Dev nD} {E : Set ℕ} {i : grid5.Coords} {arg2 harg2 arg3 harg3 arg4 harg4 arg5 harg5 x0 x1 s b} (d)
    (hx : cond5_0 i → ¬cond5_1 i) (hs : s = k5_pay2 (if cond5_0 i then k5_pay1 (F := F) else b) x0 x1) {K : PUnit → sProp 𝕄} :
    iprop(owns c.tc arg2 fullShare x0 ∗ owns c.tc arg3 fullShare x1
        ∗ owns c.tc arg4 fullShare d ∗ owns c.tc arg5 fullShare b
        ∗ (iprop(owns c.tc arg2 fullShare x0 ∗ owns c.tc arg3 fullShare x1
            ∗ owns c.tc arg4 fullShare (if cond5_1 i then s else d)
            ∗ owns c.tc arg5 fullShare s) -∗ K ⟨⟩))
      ⊢ wp frame (wpE (defs₀ (F := F)) Variants.none c.tc none) E (cc5__spmm_body i arg2 harg2 arg3 harg3 arg4 harg4 arg5 harg5) K := by
  subst hs
  by_cases hc0 : cond5_0 i <;> by_cases hc1 : cond5_1 i
  · exact absurd hc1 (hx hc0)
  all_goals
    first | rw [if_pos hc0] | rw [if_neg hc0]
    first | rw [if_pos hc1] | rw [if_neg hc1]
    simp only [cc5__spmm_body_eq_skeleton]; unfold cc5__spmm_body_skel owns
    iintro ⟨⟨%f0, %hf0, H0⟩, ⟨%f1, %hf1, H1⟩, ⟨%fd, %hfd, HD⟩, ⟨%fb, %hfb, HA⟩, Hk⟩
    subst hf0 hf1 hfd hfb
    sl_exec (disch := first | exact hc0 | exact hc1)
    sl_step
    iapply Hk
    isplitl [H0]; swap; isplitl [H1]; swap; isplitl [HD]
    all_goals
      iexists _; isplitr
      swap; · iassumption
      ipureintro
      try sl_unfold_run_names
      repeat (first | rewrite [LibBody.read_store_top] | rewrite [View.readCov_unit_zero] | rewrite [LibBody.load_top])
      all_goals first | rfl | exact LibBody.origin2

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def acc5 (c : Dev nD) : (n : ℕ) → n < cfg5.N → Vec F S1024x192 .f32
  | 0, h => k5_pay2 (k5_pay1 (F := F)) (iblk5 V c 0 ⟨0, h⟩) (iblk5 V c 1 ⟨0, h⟩)
  | n + 1, h =>
    if (n + 1) % 4 = 0 then k5_pay2 (k5_pay1 (F := F)) (iblk5 V c 0 ⟨n + 1, h⟩) (iblk5 V c 1 ⟨n + 1, h⟩)
    else k5_pay2 (acc5 c n (Nat.lt_of_succ_lt h)) (iblk5 V c 0 ⟨n + 1, h⟩) (iblk5 V c 1 ⟨n + 1, h⟩)

theorem acc5_reset (c : Dev nD) (t : Fin cfg5.N) (h : t.val % 4 = 0) :
    acc5 V c t.val t.isLt = k5_pay2 (k5_pay1 (F := F)) (iblk5 V c 0 t) (iblk5 V c 1 t) := by
  obtain ⟨n, hn⟩ := t
  cases n with
  | zero => rfl
  | succ n => exact if_pos h

theorem acc5_step (c : Dev nD) (t : Fin cfg5.N) (h : t.val % 4 ≠ 0) :
    acc5 V c t.val t.isLt
      = k5_pay2 (acc5 V c (t.val - 1) (Nat.lt_of_le_of_lt (Nat.sub_le _ _) t.isLt)) (iblk5 V c 0 t) (iblk5 V c 1 t) := by
  obtain ⟨n, hn⟩ := t
  cases n with
  | zero => exact absurd (Nat.zero_mod 4) h
  | succ n => exact (if_neg h).trans rfl

-- Reset or not, the body's step from what the position before left is the accumulator's value here.
theorem acc5_eq (c : Dev nD) (t : Fin cfg5.N) (b : Vec F S1024x192 .f32) (hb : ∀ h, t.val ≠ 0 → b = acc5 V c (t.val - 1) h) :
    acc5 V c t.val t.isLt
      = k5_pay2 (if cond5_0 (grid5.coords t) then k5_pay1 (F := F) else b) (iblk5 V c 0 t) (iblk5 V c 1 t) := by
  by_cases h0 : t.val % 4 = 0
  · rw [if_pos ((hcond5_0 t).mpr h0), acc5_reset V c t h0]
  · rw [if_neg (mt (hcond5_0 t).mp h0), acc5_step V c t h0, ← hb _ fun h => h0 (by rw [h])]

-- Before position n the accumulator holds something, which past the first position is what the position before left.
def Phi5 (c : Dev nD) (n : ℕ) : sProp 𝕄 :=
  iprop(∃ b, ⌜∀ h, n ≠ 0 → b = acc5 V c (n - 1) h⌝ ∗ owns c.tc (Memref.whole cc5_scratch0) fullShare b
    ∗ Pipeline.scopedRestBut spec5 c [cc5_scratch0] ∗ (∃ r, prngReg c r))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => acc5 V c t.val t.isLt
  Φ t := Phi5 V c t.val
  q _ := fullShare
  owed _ := 0

theorem Phi5_eq (c : Dev nD) (t) : (dat5 V c).Φ t = Phi5 V c t.val := rfl

theorem A_eq5 (c : Dev nD) (w : Fin cfg5.W) : (dat5 V c).A w = V c (Pipeline.arrRef spec5 w) := by
  dsimp only [dat5]

theorem after5_2 (c : Dev nD) (t : Fin cfg5.N) :
    (dat5 V c).after 2 t = acc5 V c t.val t.isLt := by dsimp only [dat5]

theorem PhiA5_eq (c : Dev nD) :
    (Pipeline.ΦA spec5 c : sProp 𝕄)
      = iprop(iprop((∃ a, owns c.tc (Memref.whole cc5_scratch0) fullShare a)
          ∗ Pipeline.scopedRestBut spec5 c [cc5_scratch0])
        ∗ (∃ r, prngReg c r)) := by
  unfold Pipeline.ΦA; rw [scopedRest5_split]; simp only [owns_whole]; try rfl

theorem live5_0 : ∀ t : Fin cfg5.N, cfg5.idle 0 (grid5.coords t) = false := by decide +kernel
theorem live5_1 : ∀ t : Fin cfg5.N, cfg5.idle 1 (grid5.coords t) = false := by decide +kernel
theorem live5_2 : ∀ t : Fin cfg5.N, cond5_1 (grid5.coords t) → cfg5.idle 2 (grid5.coords t) = false := by decide +kernel
theorem idle5_2 : ∀ t : Fin cfg5.N, ¬cond5_1 (grid5.coords t) → cfg5.idle 2 (grid5.coords t) = true := by decide +kernel
theorem noFlush5_2 : ∀ t : Fin cfg5.N, ¬cond5_1 (grid5.coords t) → (cfg5.win 2).flush t = false := by decide +kernel

-- The output's block after the body: the stored value where the second condition holds, else what it was.
theorem leaves5_2 (c : Dev nD) (t : Fin cfg5.N) (d) :
    owns c.tc (win5_2.stage (cfg5.slots t 2)) fullShare
        (if cond5_1 (grid5.coords t) then acc5 V c t.val t.isLt else (dat5 V c).before 2 t d)
      ⊢ (dat5 V c).leavesExact 2 t := by
  by_cases h3 : cond5_1 (grid5.coords t)
  · rw [if_pos h3, ← after5_2]; unfold Dat.leavesExact; rw [live5_2 t h3]
  · rw [if_neg h3, Dat.leavesExact_idle (dat5 V c) 2 t (idle5_2 t h3) (noFlush5_2 t h3)]
    iintro H; iexists d; iexact H

theorem body_obligation5 (c : Dev nD) : BodyObligation (dat5 (F := F) V c) (defs₀ (F := F)) Variants.none () Set.univ := fun t => by
  rw [bigSep_W5, bigSep_W5]
  show _ ⊢ wp _ _ _ (bodyAt5 t) _
  simp only [(dat5 V c).before_fetched 0 t (fetch5_0 t), (dat5 V c).before_fetched 1 t (fetch5_1 t),
    show ∀ d, (dat5 V c).fetched 0 t d = iblk5 V c 0 t from fun _ => rfl,
    show ∀ d, (dat5 V c).fetched 1 t d = iblk5 V c 1 t from fun _ => rfl, live5_0 t, live5_1 t, bodyAt5, Phi5_eq, Fin.coe_castSucc, Fin.val_succ, Phi5,
    show (dat5 V c).after 0 t = iblk5 V c 0 t from rfl, show (dat5 V c).after 1 t = iblk5 V c 1 t from rfl,
    show (dat5 V c).owesAt () t.succ = (dat5 V c).owesAt () t.castSucc from rfl]
  iintro ⟨⟨%b, %hb, HS, HR, Hg⟩, Ho, ⟨%d0, H0⟩, ⟨%d1, H1⟩, ⟨%d2, H2⟩⟩
  iapply run5 ((dat5 V c).before 2 t d2) (excl5 t) (acc5_eq V c t b hb)
  iframe H0 H1 H2 HS
  iintro ⟨H0, H1, H2, HS⟩
  isplitl [HS HR Hg]
  · iexists acc5 V c t.val t.isLt; isplitr; · ipureintro; exact fun _ _ => rfl
    iframe
  iframe Ho H0 H1
  iapply (leaves5_2 V c t d2)
  iexact H2

theorem hin5 (c : Dev nD) : (Pipeline.ΦA spec5 c : sProp 𝕄) ⊢ (dat5 V c).Φ 0 := by
  rw [PhiA5_eq, Phi5_eq]; unfold Phi5
  iintro ⟨⟨⟨%a, HS⟩, HR⟩, Hg⟩
  iexists a; isplitr; · ipureintro; exact fun _ h => absurd rfl h
  iframe

theorem hout5 (c : Dev nD) : (dat5 V c).Φ (Fin.last cfg5.N) ⊢ (Pipeline.ΦA spec5 c : sProp 𝕄) := by
  rw [PhiA5_eq, Phi5_eq]; unfold Phi5
  iintro ⟨%b, -, HS, HR, Hg⟩
  iframe HR Hg
  iexists b; iexact HS

end Cert.KernelIdeal.Hand

end
-- ==== Proof.R6.lean ====
import proofs.«100585_j72756745994352_1_alg».proof.Proof.Gen.KernelIdeal.Launch
import proofs.«100585_j72756745994352_1_alg».proof.Proof.Gen.KernelIdeal.Skeleton
import proofs.«100585_j72756745994352_1_alg».proof.Proof.Gen.KernelIdeal.Points
import proofs.«100585_j72756745994352_1_alg».proof.Proof.LibBody
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal Cert.KernelIdeal.Gen Cert.LibBody
open Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem

variable {F : FTy → Type} [FloatOps F]

variable (V : (c : Dev nD) → (b : Ref sig .tc) → Buf (Elt F) ((c : Thread nD τ).loc b))
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => k6_pay1 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := rfl

theorem after6_3 (c : Dev nD) (t : Fin cfg6.N) :
    (dat6 V c).after 3 t = k6_pay1 (iblk6 V c 0 t) (iblk6 V c 1 t) (iblk6 V c 2 t) := rfl

-- For an input window the contents before a point are the window's block, which is also what the body leaves.
theorem before6_in (c : Dev nD) : ∀ w : Fin cfg6.W, (cfg6.win w).isOut = false → ∀ t d, (dat6 V c).before w t d = (dat6 V c).after w t
  | 0, _, t, d | 1, _, t, d | 2, _, t, d =>
    ((dat6 V c).before_in_eq_fetched _ rfl (fun _ => rfl) (fun _ _ _ => rfl) (fun _ => rfl) t d).trans rfl
  | 3, h, _, _ => absurd h (by decide)

-- One store through the whole output rectangle decides what it reads as; the inputs are only read.
theorem body_obligation6 (c : Dev nD) : BodyObligation (dat6 (F := F) V c) (defs₀ (F := F)) Variants.none () Set.univ := fun t => by
  rw [bigSep_W6, bigSep_W6]
  show _ ⊢ wp _ _ _ (bodyAt6 t) _
  simp only [before6_in V c 0 rfl, before6_in V c 1 rfl, before6_in V c 2 rfl, bodyAt6, cc6__linear_body_eq_skeleton,
    show (dat6 V c).Φ t.succ = (dat6 V c).Φ t.castSucc from rfl, show (dat6 V c).owesAt () t.succ = (dat6 V c).owesAt () t.castSucc from rfl]
  unfold cc6__linear_body_skel owns
  iintro ⟨HΦ, Ho, ⟨%_, %f0, %h0, H0⟩, ⟨%_, %f1, %h1, H1⟩, ⟨%_, %f2, %h2, H2⟩, ⟨%_, %f3, -, H3⟩⟩
  sl_exec
  sl_step
  iframe HΦ Ho
  isplitl [H0]; · iexists f0; iframe %h0 H0
  isplitl [H1]; · iexists f1; iframe %h1 H1
  isplitl [H2]; · iexists f2; iframe %h2 H2
  iexists _; iframe; ipureintro
  exact (read_store_top _ _ origin2 _ _ _).trans (congr (congr (congrArg k6_pay1 ((load_top _ _ origin2 _).trans h0))
    ((load_top _ _ origin2 _).trans h1)) ((load_top _ _ origin2 _).trans h2))

end Cert.KernelIdeal.Hand

end
-- ==== Proof.R7.lean ====
import proofs.«100585_j72756745994352_1_alg».proof.Proof.Gen.KernelIdeal.Launch
import proofs.«100585_j72756745994352_1_alg».proof.Proof.Gen.KernelIdeal.Skeleton
import proofs.«100585_j72756745994352_1_alg».proof.Proof.Gen.KernelIdeal.Points
import proofs.«100585_j72756745994352_1_alg».proof.Proof.LibBody
import Idealize.ShloMosaic.Lib.Pipeline.RegionsLoop
import Idealize.ShloMosaic.Lib.Pipeline.FrameSuffix
import Idealize.ShloMosaic.Lib.Ring

noncomputable section

namespace Cert.KernelIdeal.Hand

open Cert.KernelIdeal Cert.KernelIdeal.Gen Cert.LibBody
open Idealize.ShloMosaic Idealize.ShloMosaic.TcCoe Idealize.ShloMosaic.Tactic Idealize.ShloMosaic.Pipeline
open Idealize.SL Idealize.SL.RA Idealize.SL.BI Idealize.SL.BI.BIBase Idealize.SL.ProofMode Idealize.SL.Sem

variable {F : FTy → Type} [FloatOps F]

variable (V : (c : Dev nD) → (b : Ref sig .tc) → Buf (Elt F) ((c : Thread nD τ).loc b))
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => k7_pay1 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := rfl

theorem after7_2 (c : Dev nD) (t : Fin cfg7.N) :
    (dat7 V c).after 2 t = k7_pay1 (iblk7 V c 0 t) (iblk7 V c 1 t) := rfl

-- For an input window the contents before a point are the window's block, which is also what the body leaves.
theorem before7_in (c : Dev nD) : ∀ w : Fin cfg7.W, (cfg7.win w).isOut = false → ∀ t d, (dat7 V c).before w t d = (dat7 V c).after w t
  | 0, _, t, d | 1, _, t, d =>
    ((dat7 V c).before_in_eq_fetched _ rfl (fun _ => rfl) (fun _ _ _ => rfl) (fun _ => rfl) t d).trans rfl
  | 2, h, _, _ => absurd h (by decide)

-- One store through the whole output rectangle decides what it reads as; the inputs are only read.
theorem body_obligation7 (c : Dev nD) : BodyObligation (dat7 (F := F) V c) (defs₀ (F := F)) Variants.none () Set.univ := fun t => by
  rw [bigSep_W7, bigSep_W7]
  show _ ⊢ wp _ _ _ (bodyAt7 t) _
  simp only [before7_in V c 0 rfl, before7_in V c 1 rfl, bodyAt7, cc7__pred_body_eq_skeleton,
    show (dat7 V c).Φ t.succ = (dat7 V c).Φ t.castSucc from rfl, show (dat7 V c).owesAt () t.succ = (dat7 V c).owesAt () t.castSucc from rfl]
  unfold cc7__pred_body_skel owns
  iintro ⟨HΦ, Ho, ⟨%_, %f0, %h0, H0⟩, ⟨%_, %f1, %h1, H1⟩, ⟨%_, %f2, -, H2⟩⟩
  sl_exec
  sl_step
  iframe HΦ Ho
  isplitl [H0]; · iexists f0; iframe %h0 H0
  isplitl [H1]; · iexists f1; iframe %h1 H1
  iexists _; iframe; ipureintro
  exact (read_store_top _ _ origin2 _ _ _).trans (congrArg₂ k7_pay1 ((load_top _ _ origin2 _).trans h0) ((load_top _ _ origin2 _).trans h1))

end Cert.KernelIdeal.Hand

end
-- ==== Proof.Fold.lean ====
import proofs.«100585_j72756745994352_1_alg».proof.Proof.Gen.KernelIdeal.Launch
import proofs.«100585_j72756745994352_1_alg».proof.Proof.Gen.KernelIdeal.Skeleton
import proofs.«100585_j72756745994352_1_alg».proof.Proof.Gen.KernelIdeal.Points
import proofs.«100585_j72756745994352_1_alg».proof.Proof.Gen.KernelIdeal.Regions
import proofs.«100585_j72756745994352_1_alg».proof.Proof.R0
import proofs.«100585_j72756745994352_1_alg».proof.Proof.R1
import proofs.«100585_j72756745994352_1_alg».proof.Proof.R2
import proofs.«100585_j72756745994352_1_alg».proof.Proof.R3
import proofs.«100585_j72756745994352_1_alg».proof.Proof.R4
import proofs.«100585_j72756745994352_1_alg».proof.Proof.R5
import proofs.«100585_j72756745994352_1_alg».proof.Proof.R6
import proofs.«100585_j72756745994352_1_alg».proof.Proof.R7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe
open Idealize.ShloMosaic.Pipeline (Dat Cfg)

variable {F : FTy → Type} [FloatOps F]
variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
def W3 (c : Dev nD) : Valuation τ sig (Elt F) :=
  Pipeline.withArrays spec1 c (W2 m ρ c) fun w => (dat1 (V2 m ρ) c).arrAt w cfg1.N
abbrev V3 : (c : Dev nD) → (b : Ref sig .tc) → Buf (Elt F) ((c : Thread nD τ).loc b) := fun c b => W3 m ρ c b
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
def W5 (c : Dev nD) : Valuation τ sig (Elt F) :=
  Pipeline.withArrays spec2 c (W4 m ρ c) fun w => (dat2 (V4 m ρ) c).arrAt w cfg2.N
abbrev V5 : (c : Dev nD) → (b : Ref sig .tc) → Buf (Elt F) ((c : Thread nD τ).loc b) := fun c b => W5 m ρ c b
def W6 (c : Dev nD) : Valuation τ sig (Elt F) :=
  Pipeline.withArrays spec3 c (W5 m ρ c) fun w => (dat3 (V5 m ρ) c).arrAt w cfg3.N
abbrev V6 : (c : Dev nD) → (b : Ref sig .tc) → Buf (Elt F) ((c : Thread nD τ).loc b) := fun c b => W6 m ρ c b
abbrev W7 : Dev nD → Valuation τ sig (Elt F) := fun c => StableHlo.after hostOps4 (W6 m ρ c)
abbrev V7 : (c : Dev nD) → (b : Ref sig .tc) → Buf (Elt F) ((c : Thread nD τ).loc b) := fun c b => W7 m ρ c b
def W8 (c : Dev nD) : Valuation τ sig (Elt F) :=
  Pipeline.withArrays spec4 c (W7 m ρ c) fun w => (dat4 (V7 m ρ) c).arrAt w cfg4.N
abbrev V8 : (c : Dev nD) → (b : Ref sig .tc) → Buf (Elt F) ((c : Thread nD τ).loc b) := fun c b => W8 m ρ c b
def W9 (c : Dev nD) : Valuation τ sig (Elt F) :=
  Pipeline.withArrays spec5 c (W8 m ρ c) fun w => (dat5 (V8 m ρ) c).arrAt w cfg5.N
abbrev V9 : (c : Dev nD) → (b : Ref sig .tc) → Buf (Elt F) ((c : Thread nD τ).loc b) := fun c b => W9 m ρ c b
def W10 (c : Dev nD) : Valuation τ sig (Elt F) :=
  Pipeline.withArrays spec6 c (W9 m ρ c) fun w => (dat6 (V9 m ρ) c).arrAt w cfg6.N
abbrev V10 : (c : Dev nD) → (b : Ref sig .tc) → Buf (Elt F) ((c : Thread nD τ).loc b) := fun c b => W10 m ρ c b
def W11 (c : Dev nD) : Valuation τ sig (Elt F) :=
  Pipeline.withArrays spec7 c (W10 m ρ c) fun w => (dat7 (V10 m ρ) c).arrAt w cfg7.N
abbrev V11 : (c : Dev nD) → (b : Ref sig .tc) → Buf (Elt F) ((c : Thread nD τ).loc b) := fun c b => W11 m ρ c b
abbrev W12 : Dev nD → Valuation τ sig (Elt F) := fun c => StableHlo.after hostOps8 (W11 m ρ c)
abbrev V12 : (c : Dev nD) → (b : Ref sig .tc) → Buf (Elt F) ((c : Thread nD τ).loc b) := fun c b => W12 m ρ c b

/-- The valuation changes only at the windows' arrays, and an input window's array ends at its entry contents. -/
theorem withArrays_keep {cfg : Cfg sig Λ₀} {c : Dev nD} (d : Dat τ (Elt F) Unit ℕ (UR sig nD τ) ℕ cfg c)
    (hinj : Function.Injective (Pipeline.arrRef cfg.spec)) (V : Valuation τ sig (Elt F))
    (hA : ∀ w, d.A w = V (Proc.devRef .tc (Pipeline.arrRef cfg.spec w))) (n : ℕ) {r : Ref sig .tc}
    (h : ∀ w, Pipeline.arrRef cfg.spec w = r → (cfg.win w).isOut = false) :
    Pipeline.withArrays cfg.spec c V (fun w => d.arrAt w n) (Proc.devRef .tc r) = V (Proc.devRef .tc r) := by
  by_cases hr : ∃ w, Pipeline.arrRef cfg.spec w = r
  · obtain ⟨w, rfl⟩ := hr
    exact (Pipeline.withArrays_arr cfg.spec hinj c V _ w).trans ((d.arrAt_in w (h w rfl) n).trans (hA w))
  · exact Pipeline.withArrays_of_ne cfg.spec c V _ r fun w e => hr ⟨w, e⟩

section
variable {m ρ} {c : Dev nD} {r : Ref sig .tc}
theorem W1_keep (h : r ∉ hostOps0_W) : W1 m ρ c (Proc.devRef .tc r) = W0 m ρ c (Proc.devRef .tc r) :=
  StableHlo.after_of_writes_sub hostOps0 _ hostOps0_writes h
theorem W2_keep (h : ∀ w, Pipeline.arrRef spec0 w = r → (cfg0.win w).isOut = false) :
    W2 m ρ c (Proc.devRef .tc r) = W1 m ρ c (Proc.devRef .tc r) :=
  withArrays_keep (dat0 (V1 m ρ) c) launch0.win.arr_inj _ (A_eq0 (V1 m ρ) c) _ h
theorem W3_keep (h : ∀ w, Pipeline.arrRef spec1 w = r → (cfg1.win w).isOut = false) :
    W3 m ρ c (Proc.devRef .tc r) = W2 m ρ c (Proc.devRef .tc r) :=
  withArrays_keep (dat1 (V2 m ρ) c) launch1.win.arr_inj _ (A_eq1 (V2 m ρ) c) _ h
theorem W4_keep (h : r ∉ hostOps2_W) : W4 m ρ c (Proc.devRef .tc r) = W3 m ρ c (Proc.devRef .tc r) :=
  StableHlo.after_of_writes_sub hostOps2 _ hostOps2_writes h
theorem W5_keep (h : ∀ w, Pipeline.arrRef spec2 w = r → (cfg2.win w).isOut = false) :
    W5 m ρ c (Proc.devRef .tc r) = W4 m ρ c (Proc.devRef .tc r) :=
  withArrays_keep (dat2 (V4 m ρ) c) launch2.win.arr_inj _ (A_eq2 (V4 m ρ) c) _ h
theorem W6_keep (h : ∀ w, Pipeline.arrRef spec3 w = r → (cfg3.win w).isOut = false) :
    W6 m ρ c (Proc.devRef .tc r) = W5 m ρ c (Proc.devRef .tc r) :=
  withArrays_keep (dat3 (V5 m ρ) c) launch3.win.arr_inj _ (A_eq3 (V5 m ρ) c) _ h
theorem W7_keep (h : r ∉ hostOps4_W) : W7 m ρ c (Proc.devRef .tc r) = W6 m ρ c (Proc.devRef .tc r) :=
  StableHlo.after_of_writes_sub hostOps4 _ hostOps4_writes h
theorem W8_keep (h : ∀ w, Pipeline.arrRef spec4 w = r → (cfg4.win w).isOut = false) :
    W8 m ρ c (Proc.devRef .tc r) = W7 m ρ c (Proc.devRef .tc r) :=
  withArrays_keep (dat4 (V7 m ρ) c) launch4.win.arr_inj _ (A_eq4 (V7 m ρ) c) _ h
theorem W9_keep (h : ∀ w, Pipeline.arrRef spec5 w = r → (cfg5.win w).isOut = false) :
    W9 m ρ c (Proc.devRef .tc r) = W8 m ρ c (Proc.devRef .tc r) :=
  withArrays_keep (dat5 (V8 m ρ) c) launch5.win.arr_inj _ (A_eq5 (V8 m ρ) c) _ h
theorem W10_keep (h : ∀ w, Pipeline.arrRef spec6 w = r → (cfg6.win w).isOut = false) :
    W10 m ρ c (Proc.devRef .tc r) = W9 m ρ c (Proc.devRef .tc r) :=
  withArrays_keep (dat6 (V9 m ρ) c) launch6.win.arr_inj _ (A_eq6 (V9 m ρ) c) _ h
theorem W11_keep (h : ∀ w, Pipeline.arrRef spec7 w = r → (cfg7.win w).isOut = false) :
    W11 m ρ c (Proc.devRef .tc r) = W10 m ρ c (Proc.devRef .tc r) :=
  withArrays_keep (dat7 (V10 m ρ) c) launch7.win.arr_inj _ (A_eq7 (V10 m ρ) c) _ h
theorem W12_keep (h : r ∉ hostOps8_W) : W12 m ρ c (Proc.devRef .tc r) = W11 m ρ c (Proc.devRef .tc r) :=
  StableHlo.after_of_writes_sub hostOps8 _ hostOps8_writes h
end

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.Run.lean ====
import proofs.«100585_j72756745994352_1_alg».proof.Proof.Gen.KernelIdeal.Launch
import proofs.«100585_j72756745994352_1_alg».proof.Proof.Gen.KernelIdeal.Skeleton
import proofs.«100585_j72756745994352_1_alg».proof.Proof.Gen.KernelIdeal.Points
import proofs.«100585_j72756745994352_1_alg».proof.Proof.Gen.KernelIdeal.Regions
import proofs.«100585_j72756745994352_1_alg».proof.Proof.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 8) → (pcfgs (F := F) p).Adm := fun p => (cfgs p).toPCfg_adm
def pdats : (p : Fin 8) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
  | ⟨4, _⟩ => fun c => dat4 (V7 m ρ) c
  | ⟨5, _⟩ => fun c => dat5 (V8 m ρ) c
  | ⟨6, _⟩ => fun c => dat6 (V9 m ρ) c
  | ⟨7, _⟩ => fun c => dat7 (V10 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W12 m ρ c) ∗ ∃ r, prngReg c r)

set_option backward.isDefEq.respectTransparency.types false in
/-- Region `p` takes its arrays from their contents at entry to their contents at exit and hands everything else through unchanged. -/
def mkReg (pd : (p : Fin 8) → (c : Dev nD) → Dat τ (Elt F) Unit ℕ (UR sig nD τ) ℕ (Pipeline.pin (pcfgs (F := F)) adm p) c)
    (p : Fin 8) (la : Pipeline.LaunchFacts (nD := nD) (τ := τ) cfgs p) (Win : Dev nD → Valuation τ sig (Elt F))
    (hb : ∀ c, BodyObligation (pd p c) (defs₀ (F := F)) Variants.none () Set.univ)
    (hi : ∀ c, (Pipeline.ΦA (Pipeline.pin (pcfgs (F := F)) adm p).spec c : sProp 𝕄) ⊢ (pd p c).Φ 0 := by exact fun _ => .rfl)
    (ho : ∀ c, (pd p c).Φ (Fin.last (Pipeline.pin (pcfgs (F := F)) adm p).N) ⊢ (Pipeline.ΦA (Pipeline.pin (pcfgs (F := F)) adm p).spec c : sProp 𝕄) := by exact fun _ => .rfl)
    (hA : ∀ c w, (pd p c).A w = Win c (Proc.devRef .tc (Pipeline.arrRef (Pipeline.pin (pcfgs (F := F)) adm p).spec w)) := by exact fun _ _ => rfl)
    (hq : ∀ c w, (pd p c).q w = fullShare := by exact fun _ _ => rfl)
    (how : ∀ c t, (pd p c).owed t = 0 := by exact fun _ _ => rfl)
    (hrec : ∀ c t, (pd p c).recorded t = Set.univ := by exact fun _ _ => rfl) :
    Pipeline.RegionSeg (pcfgs (F := F)) adm pd () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p how
  pre c := iprop(StableHlo.held (c : Thread nD τ) (Pipeline.ucRefs τ sig) (Win c) ∗ R c)
  post c := iprop(StableHlo.held (c : Thread nD τ) (Pipeline.ucRefs τ sig)
    (Pipeline.withArrays (Pipeline.pin (pcfgs (F := F)) adm p).spec c (Win c) fun w => (pd p c).arrAt w (Pipeline.pin (pcfgs (F := F)) adm p).N) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c fun b => Win c b
  hentry c := by
    rw [Pipeline.ownSems0_none]
    have hsplit := Pipeline.arrays_of_unscopedBufs (p := p) (pcfgs (F := F)) adm pd la.win la.arr_whole c
      ((pd p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [how c]; icases HO with ⟨%W, HO⟩; iexists W; isplitr; · ipureintro; exact fun _ _ => Or.inl (hrec c 0 ▸ trivial)
      iexact HO
    isplitl [Hp]; · iexact Hp
    iexact Hrest
  hin c := by
    have h := hi c
    unfold Pipeline.ΦA at h
    iintro ⟨Hp, -, Hr⟩
    iapply h
    isplitl [Hr]; · iexact Hr
    iexact Hp
  hout c := by
    have h := ho c
    unfold Pipeline.ΦA at h
    rw [Pipeline.ownSems0_none]
    iintro Hq
    ihave H := h $$ Hq
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c pd ((pd p c).share_full (hq c))
      (fun b => Win c b) (fun b => Pipeline.withArrays (Pipeline.pin (pcfgs (F := F)) adm p).spec c (Win c) (fun w => (pd p c).arrAt w (Pipeline.pin (pcfgs (F := F)) adm p).N) b)
      ((pd p c).arrAt · (Pipeline.pin (pcfgs (F := F)) adm p).N)
      (fun w => (Pipeline.withArrays_arr (Pipeline.pin (pcfgs (F := F)) adm p).spec la.win.arr_inj c (Win c) (fun w => (pd p c).arrAt w (Pipeline.pin (pcfgs (F := F)) adm p).N) w).symm)
      (fun b hb => Pipeline.withArrays_of_ne (Pipeline.pin (pcfgs (F := F)) adm p).spec c (Win c) (fun w => (pd p c).arrAt w (Pipeline.pin (pcfgs (F := F)) adm p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [how c]
    icases HO with ⟨%W, -, HO⟩; iexists W; iexact HO

set_option backward.isDefEq.respectTransparency.types false in
abbrev segs : List (Pipeline.Seg (pcfgs (F := F)) adm (pdats m ρ) () defs₀ 𝒱₀ L lv) :=
  [ .host (hseg hostOps0 hostOps0_sub hostOps0_fresh (W0 m ρ)),
    .region (mkReg (pdats m ρ) 0 launch0 (W1 m ρ) (body_obligation0 (V1 m ρ))),
    .region (mkReg (pdats m ρ) 1 launch1 (W2 m ρ) (body_obligation1 (V2 m ρ)) (hin1 (V2 m ρ)) (hout1 (V2 m ρ))),
    .host (hseg hostOps2 hostOps2_sub hostOps2_fresh (W3 m ρ)),
    .region (mkReg (pdats m ρ) 2 launch2 (W4 m ρ) (body_obligation2 (V4 m ρ))),
    .region (mkReg (pdats m ρ) 3 launch3 (W5 m ρ) (body_obligation3 (V5 m ρ)) (hin3 (V5 m ρ)) (hout3 (V5 m ρ))),
    .host (hseg hostOps4 hostOps4_sub hostOps4_fresh (W6 m ρ)),
    .region (mkReg (pdats m ρ) 4 launch4 (W7 m ρ) (body_obligation4 (V7 m ρ))),
    .region (mkReg (pdats m ρ) 5 launch5 (W8 m ρ) (body_obligation5 (V8 m ρ)) (hin5 (V8 m ρ)) (hout5 (V8 m ρ))),
    .region (mkReg (pdats m ρ) 6 launch6 (W9 m ρ) (body_obligation6 (V9 m ρ))),
    .region (mkReg (pdats m ρ) 7 launch7 (W10 m ρ) (body_obligation7 (V10 m ρ))),
    .host (hseg hostOps8 hostOps8_sub hostOps8_fresh (W11 m ρ)) ]
theorem main_run (c : Dev nD) : main (F := F) c = Pipeline.Seg.run (segs m ρ) := (main_chain c).trans (by chain_rfl)
set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl,
      fun _ => Laws.sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- A reference that no host stretch writes and that is no output window's array ends as launched. -/
theorem W12_arg (c : Dev nD) (r : Ref sig .tc)
    (h : r ∉ hostOps0_W ∧ r ∉ hostOps2_W ∧ r ∉ hostOps4_W ∧ r ∉ hostOps8_W
      ∧ ∀ p : Fin 8, ∀ w, Pipeline.arrRef (cfgs p).spec w = r → ((cfgs p).win w).isOut = false) :
    W12 m ρ c (Proc.devRef .tc r) = m ((c : Thread nD τ).loc r) :=
  (W12_keep h.2.2.2.1).trans <| (W11_keep (h.2.2.2.2 7)).trans <| (W10_keep (h.2.2.2.2 6)).trans <|
  (W9_keep (h.2.2.2.2 5)).trans <| (W8_keep (h.2.2.2.2 4)).trans <| (W7_keep h.2.2.1).trans <|
  (W6_keep (h.2.2.2.2 3)).trans <| (W5_keep (h.2.2.2.2 2)).trans <| (W4_keep h.2.1).trans <|
  (W3_keep (h.2.2.2.2 1)).trans <| (W2_keep (h.2.2.2.2 0)).trans <| W1_keep h.1
theorem W12_main_arg0 (c : Dev nD) : W12 m ρ c (Proc.devRef .tc main_arg0) = m ((c : Thread nD τ).loc main_arg0) :=
  W12_arg m ρ c _ (by decide)
theorem W12_main_arg1 (c : Dev nD) : W12 m ρ c (Proc.devRef .tc main_arg1) = m ((c : Thread nD τ).loc main_arg1) :=
  W12_arg m ρ c _ (by decide)
theorem W12_main_arg2 (c : Dev nD) : W12 m ρ c (Proc.devRef .tc main_arg2) = m ((c : Thread nD τ).loc main_arg2) :=
  W12_arg m ρ c _ (by decide)
theorem W12_main_arg3 (c : Dev nD) : W12 m ρ c (Proc.devRef .tc main_arg3) = m ((c : Thread nD τ).loc main_arg3) :=
  W12_arg m ρ c _ (by decide)
theorem W12_main_arg4 (c : Dev nD) : W12 m ρ c (Proc.devRef .tc main_arg4) = m ((c : Thread nD τ).loc main_arg4) :=
  W12_arg m ρ c _ (by decide)
theorem W12_main_arg5 (c : Dev nD) : W12 m ρ c (Proc.devRef .tc main_arg5) = m ((c : Thread nD τ).loc main_arg5) :=
  W12_arg m ρ c _ (by decide)
theorem W12_main_arg6 (c : Dev nD) : W12 m ρ c (Proc.devRef .tc main_arg6) = m ((c : Thread nD τ).loc main_arg6) :=
  W12_arg m ρ c _ (by decide)
theorem W12_main_arg7 (c : Dev nD) : W12 m ρ c (Proc.devRef .tc main_arg7) = m ((c : Thread nD τ).loc main_arg7) :=
  W12_arg m ρ c _ (by decide)
theorem W12_main_arg8 (c : Dev nD) : W12 m ρ c (Proc.devRef .tc main_arg8) = m ((c : Thread nD τ).loc main_arg8) :=
  W12_arg m ρ c _ (by decide)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c)⟩) (run_all m ρ)

end Cert.KernelIdeal.Hand

end
-- ==== Proof.Entry.lean ====
import proofs.«100585_j72756745994352_1_alg».proof.Proof.Gen.KernelIdeal.Launch
import proofs.«100585_j72756745994352_1_alg».proof.Proof.Gen.KernelIdeal.Skeleton
import proofs.«100585_j72756745994352_1_alg».proof.Proof.Gen.KernelIdeal.Points
import proofs.«100585_j72756745994352_1_alg».proof.Proof.Fold
import proofs.«100585_j72756745994352_1_alg».proof.Proof.Gen.KernelIdeal.Regions
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ) (ρ : Dev nD → PrngReg)

def sigm512 (x : FVec F S8192x512 .f32) : FVec F S8192x512 .f32 :=
  Host.divf (broadcastInDim S8192x512 ![] bcast_S_S8192x512 (constant (F := F) S_ .f32 0x3F800000#32))
    (addf (broadcastInDim S8192x512 ![] bcast_S_S8192x512 (constant (F := F) S_ .f32 0x3F800000#32)) (Host.exp (Host.negf x)))

def sigm256 (x : FVec F S8192x256 .f32) : FVec F S8192x256 .f32 :=
  Host.divf (broadcastInDim S8192x256 ![] bcast_S_S8192x256 (constant (F := F) S_ .f32 0x3F800000#32))
    (addf (broadcastInDim S8192x256 ![] bcast_S_S8192x256 (constant (F := F) S_ .f32 0x3F800000#32)) (Host.exp (Host.negf x)))

theorem V1_x (c : Dev nD) : V1 m ρ c main_arg1 = m ((c : Thread nD τ).loc main_arg1) :=
  W1_keep (by decide)

theorem V1_w (c : Dev nD) : V1 m ρ c main_arg2 = m ((c : Thread nD τ).loc main_arg2) :=
  W1_keep (by decide)

theorem V1_b (c : Dev nD) : V1 m ρ c main_v3 = broadcastInDim S1x512 ![] bcast_S_S1x512 (constant (F := F) S_ .f32 0x00000000#32) := by
  show StableHlo.after hostOps0 _ (Proc.devRef .tc main_v3) = _
  after_results

theorem V2_adj (c : Dev nD) : V2 m ρ c main_v0 = truncf .bf16 (m ((c : Thread nD τ).loc main_arg0)) bitsLt_bf16_f32 := by
  refine (W2_keep (by decide)).trans ?_
  show StableHlo.after hostOps0 _ (Proc.devRef .tc main_v0) = _
  after_results

theorem V2_h (c : Dev nD) : V2 m ρ c main_v4 = (dat0 (V1 m ρ) c).arrAt 3 cfg0.N :=
  Pipeline.withArrays_arr spec0 launch0.win.arr_inj c _ _ 3

theorem V4_x (c : Dev nD) : V4 m ρ c main_v5 = (dat1 (V2 m ρ) c).arrAt 2 cfg1.N :=
  (W4_keep (by decide)).trans (Pipeline.withArrays_arr spec1 launch1.win.arr_inj c _ _ 2)

theorem V4_w (c : Dev nD) : V4 m ρ c main_arg3 = m ((c : Thread nD τ).loc main_arg3) :=
  (W4_keep (by decide)).trans <| (W3_keep (by decide)).trans <| (W2_keep (by decide)).trans <| W1_keep (by decide)

theorem V4_b (c : Dev nD) : V4 m ρ c main_v6 = broadcastInDim S1x256 ![] bcast_S_S1x256 (constant (F := F) S_ .f32 0x00000000#32) := by
  show StableHlo.after hostOps2 _ (Proc.devRef .tc main_v6) = _
  after_results

theorem V5_adj (c : Dev nD) : V5 m ρ c main_v0 = truncf .bf16 (m ((c : Thread nD τ).loc main_arg0)) bitsLt_bf16_f32 :=
  (W5_keep (by decide)).trans <| (W4_keep (by decide)).trans <| (W3_keep (by decide)).trans (V2_adj m ρ c)

theorem V5_h (c : Dev nD) : V5 m ρ c main_v7 = (dat2 (V4 m ρ) c).arrAt 3 cfg2.N :=
  Pipeline.withArrays_arr spec2 launch2.win.arr_inj c _ _ 3

theorem V7_x (c : Dev nD) : V7 m ρ c main_v8 = (dat3 (V5 m ρ) c).arrAt 2 cfg3.N :=
  (W7_keep (by decide)).trans (Pipeline.withArrays_arr spec3 launch3.win.arr_inj c _ _ 2)

theorem V7_w (c : Dev nD) : V7 m ρ c main_v1 = concatenate S192x256 0 [⟨S64x256, m ((c : Thread nD τ).loc main_arg4)⟩, ⟨S64x256, m ((c : Thread nD τ).loc main_arg5)⟩, ⟨S64x256, m ((c : Thread nD τ).loc main_arg6)⟩] concatenates_S64x256_S64x256_S64x256_S192x256_d0 := by
  refine (W7_keep (by decide)).trans <| (W6_keep (by decide)).trans <| (W5_keep (by decide)).trans <| (W4_keep (by decide)).trans <| (W3_keep (by decide)).trans <| (W2_keep (by decide)).trans ?_
  show StableHlo.after hostOps0 _ (Proc.devRef .tc main_v1) = _
  after_results
  dsimp only
  repeat (rw [StableHlo.unary_result_ne]; rotate_left; decide)
  all_goals rfl

theorem V7_b (c : Dev nD) : V7 m ρ c main_v9 = broadcastInDim S1x192 ![] bcast_S_S1x192 (constant (F := F) S_ .f32 0x00000000#32) := by
  show StableHlo.after hostOps4 _ (Proc.devRef .tc main_v9) = _
  after_results

theorem V8_adj (c : Dev nD) : V8 m ρ c main_v0 = truncf .bf16 (m ((c : Thread nD τ).loc main_arg0)) bitsLt_bf16_f32 :=
  (W8_keep (by decide)).trans <| (W7_keep (by decide)).trans <| (W6_keep (by decide)).trans (V5_adj m ρ c)

theorem V8_h (c : Dev nD) : V8 m ρ c main_v10 = (dat4 (V7 m ρ) c).arrAt 3 cfg4.N :=
  Pipeline.withArrays_arr spec4 launch4.win.arr_inj c _ _ 3

theorem V9_x (c : Dev nD) : V9 m ρ c main_v11 = (dat5 (V8 m ρ) c).arrAt 2 cfg5.N :=
  Pipeline.withArrays_arr spec5 launch5.win.arr_inj c _ _ 2

theorem V9_w (c : Dev nD) : V9 m ρ c main_arg7 = m ((c : Thread nD τ).loc main_arg7) :=
  (W9_keep (by decide)).trans <| (W8_keep (by decide)).trans <| (W7_keep (by decide)).trans <| (W6_keep (by decide)).trans <| (W5_keep (by decide)).trans <| (W4_keep (by decide)).trans <| (W3_keep (by decide)).trans <| (W2_keep (by decide)).trans <| W1_keep (by decide)

theorem V9_b (c : Dev nD) : V9 m ρ c main_v2 = shapeCast S1x192 (m ((c : Thread nD τ).loc main_arg8)) shapeCasts_S192_S1x192 := by
  refine (W9_keep (by decide)).trans <| (W8_keep (by decide)).trans <| (W7_keep (by decide)).trans <| (W6_keep (by decide)).trans <| (W5_keep (by decide)).trans <| (W4_keep (by decide)).trans <| (W3_keep (by decide)).trans <| (W2_keep (by decide)).trans ?_
  show StableHlo.after hostOps0 _ (Proc.devRef .tc main_v2) = _
  after_results
  rfl

theorem V10_z (c : Dev nD) : V10 m ρ c main_v11 = (dat5 (V8 m ρ) c).arrAt 2 cfg5.N :=
  (W10_keep (by decide)).trans (V9_x m ρ c)

theorem V10_tz (c : Dev nD) : V10 m ρ c main_v12 = (dat6 (V9 m ρ) c).arrAt 3 cfg6.N :=
  Pipeline.withArrays_arr spec6 launch6.win.arr_inj c _ _ 3

theorem W12_pred (c : Dev nD) : W12 m ρ c (Proc.devRef .tc main_v13) = (dat7 (V10 m ρ) c).arrAt 2 cfg7.N :=
  (W12_keep (by decide)).trans (Pipeline.withArrays_arr spec7 launch7.win.arr_inj c _ _ 2)

theorem W12_z (c : Dev nD) : W12 m ρ c (Proc.devRef .tc main_v11) = (dat5 (V8 m ρ) c).arrAt 2 cfg5.N :=
  (W12_keep (by decide)).trans <| (W11_keep (by decide)).trans (V10_z m ρ c)

theorem W11_h1 (c : Dev nD) : W11 m ρ c (Proc.devRef .tc main_v5) = (dat1 (V2 m ρ) c).arrAt 2 cfg1.N :=
  (W11_keep (by decide)).trans <| (W10_keep (by decide)).trans <| (W9_keep (by decide)).trans <| (W8_keep (by decide)).trans <| (W7_keep (by decide)).trans <| (W6_keep (by decide)).trans <| (W5_keep (by decide)).trans (V4_x m ρ c)

theorem W11_h2 (c : Dev nD) : W11 m ρ c (Proc.devRef .tc main_v8) = (dat3 (V5 m ρ) c).arrAt 2 cfg3.N :=
  (W11_keep (by decide)).trans <| (W10_keep (by decide)).trans <| (W9_keep (by decide)).trans <| (W8_keep (by decide)).trans (V7_x m ρ c)

theorem W12_s1 (c : Dev nD) : W12 m ρ c (Proc.devRef .tc main_v19) = sigm512 ((dat1 (V2 m ρ) c).arrAt 2 cfg1.N) := by
  show StableHlo.after hostOps8 _ (Proc.devRef .tc main_v19) = _
  after_results
  rw [W11_h1]
  rfl

theorem W12_s2 (c : Dev nD) : W12 m ρ c (Proc.devRef .tc main_v25) = sigm256 ((dat3 (V5 m ρ) c).arrAt 2 cfg3.N) := by
  show StableHlo.after hostOps8 _ (Proc.devRef .tc main_v25) = _
  after_results
  rw [W11_h2]
  rfl

end Cert.KernelIdeal.Hand

end
-- ==== Proof.Spec.lean ====
import Idealize.ShloMosaic.PureOps.Ideal
import Idealize.ShloMosaic.PureOps.Ideal.Laws
import Idealize.ShloMosaic.Lib.ValueIdx
import Mathlib.Algebra.BigOperators.Fin
import Mathlib.Data.EReal.Basic

noncomputable section

namespace Cert.Spec

open Idealize.ShloMosaic Idealize.ShloMosaic.ValueIdx

abbrev Mat (n k : ℕ) : Type := (⟨2, ![n, k]⟩ : Shape).Idx → EReal

def linT {n k d : ℕ} (X : Mat n k) (W : Mat d k) : Mat n d :=
  fun i => ∑ l : Fin k, X (ix2 (n0 := n) (n1 := k) (i 0) l) * W (ix2 (n0 := d) (n1 := k) (i 1) l)

def agg {n k d : ℕ} (A : Mat n k) (H : Mat k d) : Mat n d :=
  fun i => ∑ l : Fin k, A (ix2 (n0 := n) (n1 := k) (i 0) l) * H (ix2 (n0 := k) (n1 := d) l (i 1))

def addRow {n d : ℕ} (Y : Mat n d) (B : Mat 1 d) : Mat n d :=
  fun i => Y i + B (ix2 (n0 := 1) (n1 := d) 0 (i 1))

def relu {n d : ℕ} (Y : Mat n d) : Mat n d := fun i => max (Y i) 0

def leakyGt {n d : ℕ} (s : EReal) (Y : Mat n d) : Mat n d := fun i => if 0 < Y i then Y i else s * Y i

def leakyGe {n d : ℕ} (s : EReal) (Y : Mat n d) : Mat n d := fun i => if 0 ≤ Y i then Y i else s * Y i

theorem leakyGt_eq_leakyGe {n d : ℕ} (s : EReal) (Y : Mat n d) : leakyGt s Y = leakyGe s Y := by
  funext i
  unfold leakyGt leakyGe
  by_cases h : 0 < Y i
  · rw [if_pos h, if_pos h.le]
  · rw [if_neg h]
    by_cases h' : 0 ≤ Y i
    ·
      have h0 : Y i = 0 := le_antisymm (not_lt.mp h) h'
      rw [if_pos h', h0, mul_zero]
    · rw [if_neg h']

def catRows {k : ℕ} (W1 W2 W3 : Mat 64 k) : Mat 192 k := fun i =>
  if h1 : (i 0).val < 64 then W1 (ix2 (n0 := 64) (n1 := k) ⟨(i 0).val, h1⟩ (i 1))
  else if h2 : (i 0).val < 128 then W2 (ix2 (n0 := 64) (n1 := k) ⟨(i 0).val - 64, by omega⟩ (i 1))
  else W3 (ix2 (n0 := 64) (n1 := k) ⟨(i 0).val - 128, by have := idx2_lt0 i; omega⟩ (i 1))

def catCols {n : ℕ} (M1 M2 M3 : Mat n 64) : Mat n 192 := fun i =>
  if h1 : (i 1).val < 64 then M1 (ix2 (n0 := n) (n1 := 64) (i 0) ⟨(i 1).val, h1⟩)
  else if h2 : (i 1).val < 128 then M2 (ix2 (n0 := n) (n1 := 64) (i 0) ⟨(i 1).val - 64, by omega⟩)
  else M3 (ix2 (n0 := n) (n1 := 64) (i 0) ⟨(i 1).val - 128, by have := idx2_lt1 i; omega⟩)

theorem catCols_lo {n : ℕ} (M1 M2 M3 : Mat n 64) (a : Fin n) (b : Fin 192) (h1 : b.val < 64) :
    catCols M1 M2 M3 (ix2 (n0 := n) (n1 := 192) a b) = M1 (ix2 (n0 := n) (n1 := 64) a ⟨b.val, h1⟩) :=
  dif_pos h1

theorem catCols_mid {n : ℕ} (M1 M2 M3 : Mat n 64) (a : Fin n) (b : Fin 192) (h1 : ¬ b.val < 64)
    (h2 : b.val < 128) :
    catCols M1 M2 M3 (ix2 (n0 := n) (n1 := 192) a b)
      = M2 (ix2 (n0 := n) (n1 := 64) a ⟨b.val - 64, by omega⟩) :=
  (dif_neg h1).trans (dif_pos h2)

theorem catCols_hi {n : ℕ} (M1 M2 M3 : Mat n 64) (a : Fin n) (b : Fin 192) (h1 : ¬ b.val < 64)
    (h2 : ¬ b.val < 128) :
    catCols M1 M2 M3 (ix2 (n0 := n) (n1 := 192) a b)
      = M3 (ix2 (n0 := n) (n1 := 64) a ⟨b.val - 128, by have := b.isLt; omega⟩) :=
  (dif_neg h1).trans (dif_neg h2)

theorem linT_catRows {n k : ℕ} (X : Mat n k) (W1 W2 W3 : Mat 64 k) :
    linT X (catRows W1 W2 W3) = catCols (linT X W1) (linT X W2) (linT X W3) := by
  funext i
  unfold catCols
  by_cases h1 : (i 1).val < 64
  · rw [dif_pos h1]; exact Finset.sum_congr rfl fun l _ => congrArg (_ * ·) (dif_pos h1)
  · rw [dif_neg h1]
    by_cases h2 : (i 1).val < 128
    · rw [dif_pos h2]; exact Finset.sum_congr rfl fun l _ => congrArg (_ * ·) ((dif_neg h1).trans (dif_pos h2))
    · rw [dif_neg h2]; exact Finset.sum_congr rfl fun l _ => congrArg (_ * ·) ((dif_neg h1).trans (dif_neg h2))

theorem agg_catCols {n k : ℕ} (A : Mat n k) (M1 M2 M3 : Mat k 64) :
    agg A (catCols M1 M2 M3) = catCols (agg A M1) (agg A M2) (agg A M3) := by
  funext i
  unfold catCols
  by_cases h1 : (i 1).val < 64
  · rw [dif_pos h1]; exact Finset.sum_congr rfl fun l _ => congrArg (_ * ·) (dif_pos h1)
  · rw [dif_neg h1]
    by_cases h2 : (i 1).val < 128
    · rw [dif_pos h2]; exact Finset.sum_congr rfl fun l _ => congrArg (_ * ·) ((dif_neg h1).trans (dif_pos h2))
    · rw [dif_neg h2]; exact Finset.sum_congr rfl fun l _ => congrArg (_ * ·) ((dif_neg h1).trans (dif_neg h2))

theorem sum_blocks (b c : ℕ) (f : Fin (b * c) → EReal) :
    ∑ l : Fin (b * c), f l = ∑ q : Fin b, ∑ r : Fin c, f ⟨c * q.val + r.val, by
      have hq := q.isLt; have hr := r.isLt
      calc c * q.val + r.val < c * q.val + c := by omega
        _ = c * (q.val + 1) := by ring
        _ ≤ c * b := Nat.mul_le_mul_left c hq
        _ = b * c := Nat.mul_comm c b⟩ := by

  rw [← Equiv.sum_comp finProdFinEquiv f, Fintype.sum_prod_type]
  refine Finset.sum_congr rfl fun q _ => Finset.sum_congr rfl fun r _ => ?_
  refine congrArg f (Fin.ext ?_)
  show r.val + c * q.val = c * q.val + r.val
  exact Nat.add_comm _ _

end Cert.Spec

end
-- ==== Proof.LibDot.lean ====
import Idealize.ShloMosaic.Lib.StackMember

namespace Cert.Spec

open Idealize.ShloMosaic Idealize.ShloMosaic.ValueIdx

variable {n k d : ℕ} {φ₁ φ₂ : FTy}

-- Every rank-two index is a pair of coordinates, so two arrays that agree at every pair are equal.
theorem ext_ix2 {α : Type} {f g : (⟨2, ![n, d]⟩ : Shape).Idx → α} (h : ∀ (r : Fin n) (j : Fin d), f (ix2 r j) = g (ix2 r j)) :
    f = g :=
  funext fun i => by
    obtain ⟨r, j, rfl⟩ : ∃ (r : Fin n) (j : Fin d), i = ix2 r j := ⟨i 0, i 1, eq_ix2 i⟩
    exact h r j

-- Into a zero accumulator, entry (p, q) of the plain product is the sum over the shared index.
theorem matmul_plain_apply (a : FVec Ideal ⟨2, ![n, k]⟩ φ₁) (b : FVec Ideal ⟨2, ![k, d]⟩ φ₂) (p : Fin n) (q : Fin d) :
    matmul (DotDims.plain n k d) none a b (constant (F := Ideal) ⟨2, ![n, d]⟩ .f32 0x00000000#32) (ix2 p q)
      = ∑ l : Fin k, a (ix2 p l) * b (ix2 l q) :=
  (congrFun (matmul_zero_eq_dotGeneral _ _ a b) _).trans (StackMember.dotGeneral_plain_apply none a b p q)

-- Against the transposed right operand, whose entry (l, q) is the operand's entry (q, l).
theorem matmul_plainT_apply (a : FVec Ideal ⟨2, ![n, k]⟩ φ₁) (w : FVec Ideal ⟨2, ![d, k]⟩ φ₂)
    (ht : (⟨2, ![d, k]⟩ : Shape).Transposes [1, 0] ⟨2, ![k, d]⟩) (p : Fin n) (q : Fin d) :
    matmul (DotDims.plain n k d) none a (transpose ⟨2, ![k, d]⟩ [1, 0] w ht) (constant (F := Ideal) ⟨2, ![n, d]⟩ .f32 0x00000000#32) (ix2 p q)
      = ∑ l : Fin k, a (ix2 p l) * w (ix2 q l) :=
  (matmul_plain_apply a _ p q).trans <| Finset.sum_congr rfl fun l _ => congrArg (a _ * ·) <|
    transpose_apply [1, 0] w ht (ix2 l q) (ix2 q l) fun b => by match b with | ⟨0, _⟩ => rfl | ⟨1, _⟩ => rfl

end Cert.Spec
-- ==== Proof.Val0.lean ====
import proofs.«100585_j72756745994352_1_alg».proof.Proof.R0
import proofs.«100585_j72756745994352_1_alg».proof.Proof.Spec
import proofs.«100585_j72756745994352_1_alg».proof.Proof.LibDot

noncomputable section

namespace Cert.KernelIdeal.Hand

open Cert.KernelIdeal Cert.KernelIdeal.Gen
open Idealize.ShloMosaic Idealize.ShloMosaic.TcCoe
open Idealize.SL.Sem

open Cert.Spec Idealize.ShloMosaic.ValueIdx

-- The block's rows times the weights' rows, plus the bias row laid along every row.
theorem pay0_apply (x : FVec Ideal S1024x1024 .f32) (w : FVec Ideal S512x1024 .f32) (b : FVec Ideal S1x512 .f32) :
    k0_pay1 (F := Ideal) x w b = addRow (linT x w) b := by
  refine ext_ix2 fun p q => ?_
  unfold k0_pay1
  simp only [shapeCast_self]
  rw [truncf_apply, addf_apply]
  exact congrArg₂ (· + ·)
    (matmul_plainT_apply _ _ _ p q)
    (broadcastTo_apply b _ _ (ix2 (0 : Fin 1) q) fun a => by match a with | ⟨0, _⟩ => rfl | ⟨1, _⟩ => rfl)

variable (V : (c : Dev nD) → (b : Ref sig .tc) → Buf (Elt Ideal) ((c : Thread nD τ).loc b))

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

abbrev G0 (c : Dev nD) : Mat 8192 512 :=
  addRow (linT (n := 8192) (k := 1024) (d := 512) (V c main_arg1) (V c main_arg2)) (V c main_v3)

-- Row p of block t is row 1024·t + p of the rows' array and of the result; the weights' and the bias's one block is the whole array.
theorem flushed0_eq (c : Dev nD) (t : Fin cfg0.N) :
    (dat0 (F := Ideal) V c).flushed 3 t = ((cfg0.win 3).blk t).view.read (Elt Ideal) (G0 V c) := by
  obtain ⟨e0, e1, e2, e3, e4, e5, e6, e7⟩ := idx_facts0 t
  show (cfg0.win 3).cut (grid0.coords t) ((dat0 (F := Ideal) V c).after 3 t) = _
  rw [after0_3, pay0_apply]
  refine ext_ix2 fun p q => ?_
  show _ = G0 V c (((cfg0.win 3).blk t).view.emb (ix2 p q))
  refine congrArg₂ (· + ·) (Finset.sum_congr rfl fun l _ => congrArg₂ (· * ·) ?_ ?_) ?_
  · exact congrArg (V c main_arg1) (Shape.idx_ext₂
      (by show win0_0.index t (0 : Fin 2) * 1024 + 1 * p.val = win0_3.index t (0 : Fin 2) * 1024 + 1 * p.val; omega)
      (by show win0_0.index t (1 : Fin 2) * 1024 + 1 * l.val = l.val; omega))
  · exact congrArg (V c main_arg2) (Shape.idx_ext₂
      (by show win0_1.index t (0 : Fin 2) * 512 + 1 * q.val = win0_3.index t (1 : Fin 2) * 512 + 1 * q.val; omega)
      (by show win0_1.index t (1 : Fin 2) * 1024 + 1 * l.val = l.val; omega))
  · exact congrArg (V c main_v3) (Shape.idx_ext₂
      (by show win0_2.index t (0 : Fin 2) * 1 + 1 * 0 = 0; omega)
      (by show win0_2.index t (1 : Fin 2) * 512 + 1 * q.val = win0_3.index t (1 : Fin 2) * 512 + 1 * q.val; omega))

-- Row r of the result lies in the block of point r / 1024.
theorem cover0 (i : S8192x512.Idx) :
    ∃ t : Fin cfg0.N, (cfg0.win 3).flush t = true ∧ i ∈ ((cfg0.win 3).blk t).view.set := by
  have hi0 := idx2_lt0 i
  have hi1 := idx2_lt1 i
  obtain ⟨t, ht⟩ : ∃ t : Fin cfg0.N, t.val = (i 0).val / 1024 :=
    ⟨⟨(i 0).val / 1024, by rw [show cfg0.N = 8 from N_0]; omega⟩, rfl⟩
  obtain ⟨-, -, -, -, -, -, e6, e7⟩ := idx_facts0 t
  refine ⟨t, flush0_3 t, ?_⟩
  show i ∈ ((View.whole main_v4).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 512 ≤ (i 1).val ∧ (i 1).val < win0_3.index t (1 : Fin 2) * 512 + 512
    omega

theorem final0 (c : Dev nD) :
    (dat0 (F := Ideal) V c).arrAt 3 cfg0.N = addRow (linT (n := 8192) (k := 1024) (d := 512) (V c main_arg1) (V c main_arg2)) (V c main_v3) :=
  (dat0 (F := Ideal) V c).arrAt_eq_of_cover 3 (G0 V c) (fun t _ => flushed0_eq V c t) cover0

end Cert.KernelIdeal.Hand

end
-- ==== Proof.LibAcc.lean ====
import proofs.«100585_j72756745994352_1_alg».proof.Proof.Spec

noncomputable section

namespace Cert.Spec

open Idealize.ShloMosaic Idealize.ShloMosaic.ValueIdx

-- A rank-two index is determined by the values of its two coordinates.
theorem ix2_of_val {n0 n1 : ℕ} {i : (⟨2, ![n0, n1]⟩ : Shape).Idx} {a : Fin n0} {b : Fin n1}
    (h0 : (i 0).val = a.val) (h1 : (i 1).val = b.val) : i = ix2 a b :=
  (eq_ix2 i).trans (congrArg₂ ix2 (Fin.ext h0) (Fin.ext h1))

-- Reset to zero at every fourth point and adding one 2048-wide slice of a row-times-column sum at each, the fourth point holds the whole sum.
theorem acc_four {d N : ℕ} (A : Mat 8192 8192) (H : Mat 8192 d) (f : (n : ℕ) → n < N → Mat 1024 d)
    (L : Fin N → Mat 1024 2048) (R : Fin N → Mat 2048 d)
    (S : Mat 1024 d → Mat 1024 2048 → Mat 2048 d → Mat 1024 d) (Z : Mat 1024 d)
    (hS : ∀ y a h p q, S y a h (ix2 p q) = y (ix2 p q) + ∑ l : Fin 2048, a (ix2 p l) * h (ix2 l q))
    (hZ : ∀ p q, Z (ix2 p q) = 0)
    (hL : ∀ (t : Fin N) (p : Fin 1024) (l : Fin 2048) (r g : Fin 8192), r.val = 1024 * (t.val / 4) + p.val →
      g.val = 2048 * (t.val % 4) + l.val → L t (ix2 p l) = A (ix2 r g))
    (hR : ∀ (t : Fin N) (l : Fin 2048) (q : Fin d) (g : Fin 8192), g.val = 2048 * (t.val % 4) + l.val →
      R t (ix2 l q) = H (ix2 g q))
    (h0 : ∀ t : Fin N, t.val % 4 = 0 → f t.val t.isLt = S Z (L t) (R t))
    (hs : ∀ t : Fin N, t.val % 4 ≠ 0 →
      f t.val t.isLt = S (f (t.val - 1) (Nat.lt_of_le_of_lt (Nat.sub_le _ _) t.isLt)) (L t) (R t))
    (t : Fin N) (h3 : t.val % 4 = 3) (p : Fin 1024) (q : Fin d) (r : Fin 8192)
    (hr : r.val = 1024 * (t.val / 4) + p.val) : f t.val t.isLt (ix2 p q) = agg A H (ix2 r q) := by
  obtain ⟨tv, h⟩ := t
  obtain ⟨n, rfl⟩ : ∃ n, tv = n + 3 := ⟨tv - 3, by have : tv % 4 = 3 := h3; omega⟩
  have hr' : r.val = 1024 * ((n + 3) / 4) + p.val := hr
  have h3' : (n + 3) % 4 = 3 := h3
  have e3 : f (n + 3) h = S (f (n + 2) (by omega)) (L ⟨n + 3, h⟩) (R ⟨n + 3, h⟩) :=
    hs ⟨n + 3, h⟩ (by show (n + 3) % 4 ≠ 0; omega)
  have e2 : f (n + 2) (by omega) = S (f (n + 1) (by omega)) (L ⟨n + 2, by omega⟩) (R ⟨n + 2, by omega⟩) :=
    hs ⟨n + 2, by omega⟩ (by show (n + 2) % 4 ≠ 0; omega)
  have e1 : f (n + 1) (by omega) = S (f n (by omega)) (L ⟨n + 1, by omega⟩) (R ⟨n + 1, by omega⟩) :=
    hs ⟨n + 1, by omega⟩ (by show (n + 1) % 4 ≠ 0; omega)
  have e0 : f n (by omega) = S Z (L ⟨n, by omega⟩) (R ⟨n, by omega⟩) :=
    h0 ⟨n, by omega⟩ (by show n % 4 = 0; omega)
  have part : ∀ (k : ℕ) (hk : n + k < N), k < 4 → ∀ (l : Fin 2048) (g : Fin 8192), g.val = 2048 * k + l.val →
      L ⟨n + k, hk⟩ (ix2 p l) * R ⟨n + k, hk⟩ (ix2 l q) = A (ix2 r g) * H (ix2 g q) := fun k hk hk4 l g hg => by
    rw [hL ⟨n + k, hk⟩ p l r g (by show r.val = 1024 * ((n + k) / 4) + p.val; omega)
      (by show g.val = 2048 * ((n + k) % 4) + l.val; omega),
      hR ⟨n + k, hk⟩ l q g (by show g.val = 2048 * ((n + k) % 4) + l.val; omega)]
  show f (n + 3) h (ix2 p q) = ∑ l : Fin (4 * 2048), A (ix2 r l) * H (ix2 l q)
  rw [e3, hS, e2, hS, e1, hS, e0, hS, hZ, zero_add, sum_blocks 4 2048, Fin.sum_univ_four]
  exact congrArg₂ (· + ·) (congrArg₂ (· + ·) (congrArg₂ (· + ·)
    (Finset.sum_congr rfl fun l _ => part 0 (by omega) (by omega) l _ rfl)
    (Finset.sum_congr rfl fun l _ => part 1 (by omega) (by omega) l _ rfl))
    (Finset.sum_congr rfl fun l _ => part 2 (by omega) (by omega) l _ rfl))
    (Finset.sum_congr rfl fun l _ => part 3 h (by omega) l _ rfl)

end Cert.Spec

end
-- ==== Proof.Val1.lean ====
import proofs.«100585_j72756745994352_1_alg».proof.Proof.Gen.KernelIdeal.Launch
import proofs.«100585_j72756745994352_1_alg».proof.Proof.Gen.KernelIdeal.Skeleton
import proofs.«100585_j72756745994352_1_alg».proof.Proof.Gen.KernelIdeal.Points
import proofs.«100585_j72756745994352_1_alg».proof.Proof.R1
import proofs.«100585_j72756745994352_1_alg».proof.Proof.LibAcc
import proofs.«100585_j72756745994352_1_alg».proof.Proof.LibDot

noncomputable section

namespace Cert.KernelIdeal.Hand

open Cert.KernelIdeal Cert.KernelIdeal.Gen
open Idealize.ShloMosaic Idealize.ShloMosaic.TcCoe
open Cert.Spec Idealize.ShloMosaic.ValueIdx

variable (V : (c : Dev nD) → (b : Ref sig .tc) → Buf (Elt Ideal) ((c : Thread nD τ).loc b))

theorem zero1_apply (p : Fin 1024) (q : Fin 512) : (k1_pay1 (F := Ideal)) (ix2 p q) = 0 := by
  unfold k1_pay1
  rw [shapeCast_self]
  exact Ideal.ofBits_zero_f32

theorem step1_apply (y : Vec Ideal S1024x512 .f32) (a : Vec Ideal S1024x2048 .bf16) (h : Vec Ideal S2048x512 .bf16)
    (p : Fin 1024) (q : Fin 512) :
    k1_pay2 y a h (ix2 p q) = y (ix2 p q) + ∑ l : Fin 2048, a (ix2 p l) * h (ix2 l q) := by
  unfold k1_pay2
  rw [shapeCast_self, shapeCast_self, shapeCast_self]
  exact congrArg (y (ix2 p q) + ·) (matmul_plain_apply a h p q)

theorem out1_apply (y : Vec Ideal S1024x512 .f32) (p : Fin 1024) (q : Fin 512) :
    k1_pay3 y (ix2 p q) = max (y (ix2 p q)) 0 := by
  unfold k1_pay3
  exact congrArg (max (y (ix2 p q))) Ideal.ofBits_zero_f32

abbrev lblk1 (c : Dev nD) (t : Fin cfg1.N) : Vec Ideal S1024x2048 .bf16 := iblk1 (F := Ideal) V c 0 t

abbrev rblk1 (c : Dev nD) (t : Fin cfg1.N) : Vec Ideal S2048x512 .bf16 := iblk1 (F := Ideal) V c 1 t

-- Point t is row block t / 4 at contraction step t % 4.
theorem idx1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

theorem lhs1_blk (c : Dev nD) (t : Fin cfg1.N) (p : Fin 1024) (l : Fin 2048) (r g : Fin 8192)
    (hr : r.val = 1024 * (t.val / 4) + p.val) (hg : g.val = 2048 * (t.val % 4) + l.val) :
    lblk1 V c t (ix2 p l) = (V c main_v0 : Mat 8192 8192) (ix2 r g) := by
  obtain ⟨e0, e1, -⟩ := idx1 t
  exact congrArg (V c main_v0) (ix2_of_val (by show win1_0.index t (0 : Fin 2) * 1024 + 1 * p.val = r.val; omega)
    (by show win1_0.index t (1 : Fin 2) * 2048 + 1 * l.val = g.val; omega))

theorem rhs1_blk (c : Dev nD) (t : Fin cfg1.N) (l : Fin 2048) (q : Fin 512) (g : Fin 8192)
    (hg : g.val = 2048 * (t.val % 4) + l.val) :
    rblk1 V c t (ix2 l q) = (V c main_v4 : Mat 8192 512) (ix2 g q) := by
  obtain ⟨-, -, e2, e3, -⟩ := idx1 t
  exact congrArg (V c main_v4) (ix2_of_val (by show win1_1.index t (0 : Fin 2) * 2048 + 1 * l.val = g.val; omega)
    (by show win1_1.index t (1 : Fin 2) * 512 + 1 * q.val = q.val; omega))

theorem out1_blk (t : Fin cfg1.N) (p : Fin 1024) (q : Fin 512) (r : Fin 8192)
    (hr : r.val = 1024 * (t.val / 4) + p.val) :
    ((cfg1.win 2).blk t).view.emb (ix2 p q) = (ix2 r q : S8192x512.Idx) := by
  obtain ⟨-, -, -, -, e4, e5⟩ := idx1 t
  exact ix2_of_val (by show win1_2.index t (0 : Fin 2) * 1024 + 1 * p.val = r.val; omega)
    (by show win1_2.index t (1 : Fin 2) * 512 + 1 * q.val = q.val; omega)

theorem acc1_row (c : Dev nD) (t : Fin cfg1.N) (h3 : t.val % 4 = 3) (p : Fin 1024) (q : Fin 512) (r : Fin 8192)
    (hr : r.val = 1024 * (t.val / 4) + p.val) :
    acc1 (F := Ideal) V c t.val t.isLt (ix2 p q)
      = agg (n := 8192) (k := 8192) (d := 512) (V c main_v0) (V c main_v4) (ix2 r q) :=
  acc_four (V c main_v0) (V c main_v4) (acc1 (F := Ideal) V c) (lblk1 V c) (rblk1 V c) (k1_pay2 (F := Ideal))
    (k1_pay1 (F := Ideal)) step1_apply zero1_apply (lhs1_blk V c) (rhs1_blk V c) (acc1_reset V c) (acc1_step V c)
    t h3 p q r hr

abbrev res1 (c : Dev nD) : Mat 8192 512 :=
  relu (agg (n := 8192) (k := 8192) (d := 512) (V c main_v0) (V c main_v4))

theorem flushed1_eq (c : Dev nD) (t : Fin cfg1.N) (hf : (cfg1.win 2).flush t = true) :
    (dat1 (F := Ideal) V c).flushed 2 t = ((cfg1.win 2).blk t).view.read (Elt Ideal) (res1 V c) := by
  have ht : t.val < 32 := (N_1 : cfg1.N = 32) ▸ t.isLt
  refine ext_ix2 (n := 1024) (d := 512) fun p q => ?_
  show (k1_pay3 (acc1 (F := Ideal) V c t.val t.isLt) : Vec Ideal S1024x512 .f32) (ix2 p q)
    = res1 V c (((cfg1.win 2).blk t).view.emb (ix2 p q))
  rw [out1_blk t p q ⟨1024 * (t.val / 4) + p.val, by omega⟩ rfl, out1_apply]
  exact congrArg (max · 0) (acc1_row V c t ((flush1_2 t).mp hf) p q _ rfl)

-- Row r is in the block of point 4 (r / 1024) + 3.
theorem cover1 (i : S8192x512.Idx) :
    ∃ t : Fin cfg1.N, (cfg1.win 2).flush t = true ∧ i ∈ ((cfg1.win 2).blk t).view.set := by
  have hi : (i 0).val < 8192 := (i 0).isLt
  have hN : cfg1.N = 32 := N_1
  obtain ⟨t, ht⟩ : ∃ t : Fin cfg1.N, t.val = 4 * ((i 0).val / 1024) + 3 := ⟨⟨_, by omega⟩, rfl⟩
  exact ⟨t, (flush1_2 t).mpr (by omega), ((out1_blk t ⟨(i 0).val % 1024, by omega⟩ (i 1) (i 0)
    (by show (i 0).val = 1024 * (t.val / 4) + (i 0).val % 1024; omega)).trans (eq_ix2 i).symm) ▸ View.emb_mem_set _ _⟩

theorem final1 (c : Dev nD) :
    (dat1 (F := Ideal) V c).arrAt 2 cfg1.N = relu (agg (n := 8192) (k := 8192) (d := 512) (V c main_v0) (V c main_v4)) :=
  (dat1 (F := Ideal) V c).arrAt_eq_of_cover 2 (res1 V c) (flushed1_eq V c) cover1

end Cert.KernelIdeal.Hand

end
-- ==== Proof.Val2.lean ====
import proofs.«100585_j72756745994352_1_alg».proof.Proof.R2
import proofs.«100585_j72756745994352_1_alg».proof.Proof.Spec
import proofs.«100585_j72756745994352_1_alg».proof.Proof.LibDot

noncomputable section

namespace Cert.KernelIdeal.Hand

open Cert.KernelIdeal Cert.KernelIdeal.Gen
open Idealize.ShloMosaic Idealize.ShloMosaic.TcCoe
open Idealize.SL.Sem

open Cert.Spec Idealize.ShloMosaic.ValueIdx

-- The block's rows times the weights' rows, plus the bias row laid along every row.
theorem pay2_apply (x : FVec Ideal S1024x512 .f32) (w : FVec Ideal S256x512 .f32) (b : FVec Ideal S1x256 .f32) :
    k2_pay1 (F := Ideal) x w b = addRow (linT x w) b := by
  refine ext_ix2 fun p q => ?_
  unfold k2_pay1
  simp only [shapeCast_self]
  rw [truncf_apply, addf_apply]
  exact congrArg₂ (· + ·)
    (matmul_plainT_apply _ _ _ p q)
    (broadcastTo_apply b _ _ (ix2 (0 : Fin 1) q) fun a => by match a with | ⟨0, _⟩ => rfl | ⟨1, _⟩ => rfl)

variable (V : (c : Dev nD) → (b : Ref sig .tc) → Buf (Elt Ideal) ((c : Thread nD τ).loc b))

theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

abbrev G2 (c : Dev nD) : Mat 8192 256 :=
  addRow (linT (n := 8192) (k := 512) (d := 256) (V c main_v5) (V c main_arg3)) (V c main_v6)

-- Row p of block t is row 1024·t + p of the rows' array and of the result; the weights' and the bias's one block is the whole array.
theorem flushed2_eq (c : Dev nD) (t : Fin cfg2.N) :
    (dat2 (F := Ideal) V c).flushed 3 t = ((cfg2.win 3).blk t).view.read (Elt Ideal) (G2 V c) := by
  obtain ⟨e0, e1, e2, e3, e4, e5, e6, e7⟩ := idx_facts2 t
  show (cfg2.win 3).cut (grid2.coords t) ((dat2 (F := Ideal) V c).after 3 t) = _
  rw [after2_3, pay2_apply]
  refine ext_ix2 fun p q => ?_
  show _ = G2 V c (((cfg2.win 3).blk t).view.emb (ix2 p q))
  refine congrArg₂ (· + ·) (Finset.sum_congr rfl fun l _ => congrArg₂ (· * ·) ?_ ?_) ?_
  · exact congrArg (V c main_v5) (Shape.idx_ext₂
      (by show win2_0.index t (0 : Fin 2) * 1024 + 1 * p.val = win2_3.index t (0 : Fin 2) * 1024 + 1 * p.val; omega)
      (by show win2_0.index t (1 : Fin 2) * 512 + 1 * l.val = l.val; omega))
  · exact congrArg (V c main_arg3) (Shape.idx_ext₂
      (by show win2_1.index t (0 : Fin 2) * 256 + 1 * q.val = win2_3.index t (1 : Fin 2) * 256 + 1 * q.val; omega)
      (by show win2_1.index t (1 : Fin 2) * 512 + 1 * l.val = l.val; omega))
  · exact congrArg (V c main_v6) (Shape.idx_ext₂
      (by show win2_2.index t (0 : Fin 2) * 1 + 1 * 0 = 0; omega)
      (by show win2_2.index t (1 : Fin 2) * 256 + 1 * q.val = win2_3.index t (1 : Fin 2) * 256 + 1 * q.val; omega))

-- Row r of the result lies in the block of point r / 1024.
theorem cover2 (i : S8192x256.Idx) :
    ∃ t : Fin cfg2.N, (cfg2.win 3).flush t = true ∧ i ∈ ((cfg2.win 3).blk t).view.set := by
  have hi0 := idx2_lt0 i
  have hi1 := idx2_lt1 i
  obtain ⟨t, ht⟩ : ∃ t : Fin cfg2.N, t.val = (i 0).val / 1024 :=
    ⟨⟨(i 0).val / 1024, by rw [show cfg2.N = 8 from N_2]; omega⟩, rfl⟩
  obtain ⟨-, -, -, -, -, -, e6, e7⟩ := idx_facts2 t
  refine ⟨t, flush2_3 t, ?_⟩
  show i ∈ ((View.whole main_v7).slice (win2_3.rect t)).set
  rw [View.set_slice_whole, Rect.mem_set_unit]
  intro a
  match a with
  | ⟨0, _⟩ =>
    show win2_3.index t (0 : Fin 2) * 1024 ≤ (i 0).val ∧ (i 0).val < win2_3.index t (0 : Fin 2) * 1024 + 1024
    omega
  | ⟨1, _⟩ =>
    show win2_3.index t (1 : Fin 2) * 256 ≤ (i 1).val ∧ (i 1).val < win2_3.index t (1 : Fin 2) * 256 + 256
    omega

theorem final2 (c : Dev nD) :
    (dat2 (F := Ideal) V c).arrAt 3 cfg2.N = addRow (linT (n := 8192) (k := 512) (d := 256) (V c main_v5) (V c main_arg3)) (V c main_v6) :=
  (dat2 (F := Ideal) V c).arrAt_eq_of_cover 3 (G2 V c) (fun t _ => flushed2_eq V c t) cover2

end Cert.KernelIdeal.Hand

end
-- ==== Proof.Val3.lean ====
import proofs.«100585_j72756745994352_1_alg».proof.Proof.Gen.KernelIdeal.Launch
import proofs.«100585_j72756745994352_1_alg».proof.Proof.Gen.KernelIdeal.Skeleton
import proofs.«100585_j72756745994352_1_alg».proof.Proof.Gen.KernelIdeal.Points
import proofs.«100585_j72756745994352_1_alg».proof.Proof.R3
import proofs.«100585_j72756745994352_1_alg».proof.Proof.LibAcc
import proofs.«100585_j72756745994352_1_alg».proof.Proof.LibDot

noncomputable section

namespace Cert.KernelIdeal.Hand

open Cert.KernelIdeal Cert.KernelIdeal.Gen
open Idealize.ShloMosaic Idealize.ShloMosaic.TcCoe
open Cert.Spec Idealize.ShloMosaic.ValueIdx

variable (V : (c : Dev nD) → (b : Ref sig .tc) → Buf (Elt Ideal) ((c : Thread nD τ).loc b))

theorem zero3_apply (p : Fin 1024) (q : Fin 256) : (k3_pay1 (F := Ideal)) (ix2 p q) = 0 := by
  unfold k3_pay1
  rw [shapeCast_self]
  exact Ideal.ofBits_zero_f32

theorem step3_apply (y : Vec Ideal S1024x256 .f32) (a : Vec Ideal S1024x2048 .bf16) (h : Vec Ideal S2048x256 .bf16)
    (p : Fin 1024) (q : Fin 256) :
    k3_pay2 y a h (ix2 p q) = y (ix2 p q) + ∑ l : Fin 2048, a (ix2 p l) * h (ix2 l q) := by
  unfold k3_pay2
  rw [shapeCast_self, shapeCast_self, shapeCast_self]
  exact congrArg (y (ix2 p q) + ·) (matmul_plain_apply a h p q)

theorem out3_apply (y : Vec Ideal S1024x256 .f32) (p : Fin 1024) (q : Fin 256) :
    k3_pay3 y (ix2 p q) = max (y (ix2 p q)) 0 := by
  unfold k3_pay3
  exact congrArg (max (y (ix2 p q))) Ideal.ofBits_zero_f32

abbrev lblk3 (c : Dev nD) (t : Fin cfg3.N) : Vec Ideal S1024x2048 .bf16 := iblk3 (F := Ideal) V c 0 t

abbrev rblk3 (c : Dev nD) (t : Fin cfg3.N) : Vec Ideal S2048x256 .bf16 := iblk3 (F := Ideal) V c 1 t

-- Point t is row block t / 4 at contraction step t % 4.
theorem idx3 : ∀ t : Fin cfg3.N,
    win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = t.val / 4 ∧ win3_2.index t (1 : Fin 2) = 0 :=
  (by decide +kernel : ∀ t : Fin grid3.N, _)

theorem lhs3_blk (c : Dev nD) (t : Fin cfg3.N) (p : Fin 1024) (l : Fin 2048) (r g : Fin 8192)
    (hr : r.val = 1024 * (t.val / 4) + p.val) (hg : g.val = 2048 * (t.val % 4) + l.val) :
    lblk3 V c t (ix2 p l) = (V c main_v0 : Mat 8192 8192) (ix2 r g) := by
  obtain ⟨e0, e1, -⟩ := idx3 t
  exact congrArg (V c main_v0) (ix2_of_val (by show win3_0.index t (0 : Fin 2) * 1024 + 1 * p.val = r.val; omega)
    (by show win3_0.index t (1 : Fin 2) * 2048 + 1 * l.val = g.val; omega))

theorem rhs3_blk (c : Dev nD) (t : Fin cfg3.N) (l : Fin 2048) (q : Fin 256) (g : Fin 8192)
    (hg : g.val = 2048 * (t.val % 4) + l.val) :
    rblk3 V c t (ix2 l q) = (V c main_v7 : Mat 8192 256) (ix2 g q) := by
  obtain ⟨-, -, e2, e3, -⟩ := idx3 t
  exact congrArg (V c main_v7) (ix2_of_val (by show win3_1.index t (0 : Fin 2) * 2048 + 1 * l.val = g.val; omega)
    (by show win3_1.index t (1 : Fin 2) * 256 + 1 * q.val = q.val; omega))

theorem out3_blk (t : Fin cfg3.N) (p : Fin 1024) (q : Fin 256) (r : Fin 8192)
    (hr : r.val = 1024 * (t.val / 4) + p.val) :
    ((cfg3.win 2).blk t).view.emb (ix2 p q) = (ix2 r q : S8192x256.Idx) := by
  obtain ⟨-, -, -, -, e4, e5⟩ := idx3 t
  exact ix2_of_val (by show win3_2.index t (0 : Fin 2) * 1024 + 1 * p.val = r.val; omega)
    (by show win3_2.index t (1 : Fin 2) * 256 + 1 * q.val = q.val; omega)

theorem acc3_row (c : Dev nD) (t : Fin cfg3.N) (h3 : t.val % 4 = 3) (p : Fin 1024) (q : Fin 256) (r : Fin 8192)
    (hr : r.val = 1024 * (t.val / 4) + p.val) :
    acc3 (F := Ideal) V c t.val t.isLt (ix2 p q)
      = agg (n := 8192) (k := 8192) (d := 256) (V c main_v0) (V c main_v7) (ix2 r q) :=
  acc_four (V c main_v0) (V c main_v7) (acc3 (F := Ideal) V c) (lblk3 V c) (rblk3 V c) (k3_pay2 (F := Ideal))
    (k3_pay1 (F := Ideal)) step3_apply zero3_apply (lhs3_blk V c) (rhs3_blk V c) (acc3_reset V c) (acc3_step V c)
    t h3 p q r hr

abbrev res3 (c : Dev nD) : Mat 8192 256 :=
  relu (agg (n := 8192) (k := 8192) (d := 256) (V c main_v0) (V c main_v7))

theorem flushed3_eq (c : Dev nD) (t : Fin cfg3.N) (hf : (cfg3.win 2).flush t = true) :
    (dat3 (F := Ideal) V c).flushed 2 t = ((cfg3.win 2).blk t).view.read (Elt Ideal) (res3 V c) := by
  have ht : t.val < 32 := (N_3 : cfg3.N = 32) ▸ t.isLt
  refine ext_ix2 (n := 1024) (d := 256) fun p q => ?_
  show (k3_pay3 (acc3 (F := Ideal) V c t.val t.isLt) : Vec Ideal S1024x256 .f32) (ix2 p q)
    = res3 V c (((cfg3.win 2).blk t).view.emb (ix2 p q))
  rw [out3_blk t p q ⟨1024 * (t.val / 4) + p.val, by omega⟩ rfl, out3_apply]
  exact congrArg (max · 0) (acc3_row V c t ((flush3_2 t).mp hf) p q _ rfl)

-- Row r is in the block of point 4 (r / 1024) + 3.
theorem cover3 (i : S8192x256.Idx) :
    ∃ t : Fin cfg3.N, (cfg3.win 2).flush t = true ∧ i ∈ ((cfg3.win 2).blk t).view.set := by
  have hi : (i 0).val < 8192 := (i 0).isLt
  have hN : cfg3.N = 32 := N_3
  obtain ⟨t, ht⟩ : ∃ t : Fin cfg3.N, t.val = 4 * ((i 0).val / 1024) + 3 := ⟨⟨_, by omega⟩, rfl⟩
  exact ⟨t, (flush3_2 t).mpr (by omega), ((out3_blk t ⟨(i 0).val % 1024, by omega⟩ (i 1) (i 0)
    (by show (i 0).val = 1024 * (t.val / 4) + (i 0).val % 1024; omega)).trans (eq_ix2 i).symm) ▸ View.emb_mem_set _ _⟩

theorem final3 (c : Dev nD) :
    (dat3 (F := Ideal) V c).arrAt 2 cfg3.N = relu (agg (n := 8192) (k := 8192) (d := 256) (V c main_v0) (V c main_v7)) :=
  (dat3 (F := Ideal) V c).arrAt_eq_of_cover 2 (res3 V c) (flushed3_eq V c) cover3

end Cert.KernelIdeal.Hand

end
-- ==== Proof.Val4.lean ====
import proofs.«100585_j72756745994352_1_alg».proof.Proof.R4
import proofs.«100585_j72756745994352_1_alg».proof.Proof.Spec
import proofs.«100585_j72756745994352_1_alg».proof.Proof.LibDot

noncomputable section

namespace Cert.KernelIdeal.Hand

open Cert.KernelIdeal Cert.KernelIdeal.Gen
open Idealize.ShloMosaic Idealize.ShloMosaic.TcCoe
open Idealize.SL.Sem

open Cert.Spec Idealize.ShloMosaic.ValueIdx

-- The block's rows times the weights' rows, plus the bias row laid along every row.
theorem pay4_apply (x : FVec Ideal S1024x256 .f32) (w : FVec Ideal S192x256 .f32) (b : FVec Ideal S1x192 .f32) :
    k4_pay1 (F := Ideal) x w b = addRow (linT x w) b := by
  refine ext_ix2 fun p q => ?_
  unfold k4_pay1
  simp only [shapeCast_self]
  rw [truncf_apply, addf_apply]
  exact congrArg₂ (· + ·)
    (matmul_plainT_apply _ _ _ p q)
    (broadcastTo_apply b _ _ (ix2 (0 : Fin 1) q) fun a => by match a with | ⟨0, _⟩ => rfl | ⟨1, _⟩ => rfl)

variable (V : (c : Dev nD) → (b : Ref sig .tc) → Buf (Elt Ideal) ((c : Thread nD τ).loc b))

theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

abbrev G4 (c : Dev nD) : Mat 8192 192 :=
  addRow (linT (n := 8192) (k := 256) (d := 192) (V c main_v8) (V c main_v1)) (V c main_v9)

-- Row p of block t is row 1024·t + p of the rows' array and of the result; the weights' and the bias's one block is the whole array.
theorem flushed4_eq (c : Dev nD) (t : Fin cfg4.N) :
    (dat4 (F := Ideal) V c).flushed 3 t = ((cfg4.win 3).blk t).view.read (Elt Ideal) (G4 V c) := by
  obtain ⟨e0, e1, e2, e3, e4, e5, e6, e7⟩ := idx_facts4 t
  show (cfg4.win 3).cut (grid4.coords t) ((dat4 (F := Ideal) V c).after 3 t) = _
  rw [after4_3, pay4_apply]
  refine ext_ix2 fun p q => ?_
  show _ = G4 V c (((cfg4.win 3).blk t).view.emb (ix2 p q))
  refine congrArg₂ (· + ·) (Finset.sum_congr rfl fun l _ => congrArg₂ (· * ·) ?_ ?_) ?_
  · exact congrArg (V c main_v8) (Shape.idx_ext₂
      (by show win4_0.index t (0 : Fin 2) * 1024 + 1 * p.val = win4_3.index t (0 : Fin 2) * 1024 + 1 * p.val; omega)
      (by show win4_0.index t (1 : Fin 2) * 256 + 1 * l.val = l.val; omega))
  · exact congrArg (V c main_v1) (Shape.idx_ext₂
      (by show win4_1.index t (0 : Fin 2) * 192 + 1 * q.val = win4_3.index t (1 : Fin 2) * 192 + 1 * q.val; omega)
      (by show win4_1.index t (1 : Fin 2) * 256 + 1 * l.val = l.val; omega))
  · exact congrArg (V c main_v9) (Shape.idx_ext₂
      (by show win4_2.index t (0 : Fin 2) * 1 + 1 * 0 = 0; omega)
      (by show win4_2.index t (1 : Fin 2) * 192 + 1 * q.val = win4_3.index t (1 : Fin 2) * 192 + 1 * q.val; omega))

-- Row r of the result lies in the block of point r / 1024.
theorem cover4 (i : S8192x192.Idx) :
    ∃ t : Fin cfg4.N, (cfg4.win 3).flush t = true ∧ i ∈ ((cfg4.win 3).blk t).view.set := by
  have hi0 := idx2_lt0 i
  have hi1 := idx2_lt1 i
  obtain ⟨t, ht⟩ : ∃ t : Fin cfg4.N, t.val = (i 0).val / 1024 :=
    ⟨⟨(i 0).val / 1024, by rw [show cfg4.N = 8 from N_4]; omega⟩, rfl⟩
  obtain ⟨-, -, -, -, -, -, e6, e7⟩ := idx_facts4 t
  refine ⟨t, flush4_3 t, ?_⟩
  show i ∈ ((View.whole main_v10).slice (win4_3.rect t)).set
  rw [View.set_slice_whole, Rect.mem_set_unit]
  intro a
  match a with
  | ⟨0, _⟩ =>
    show win4_3.index t (0 : Fin 2) * 1024 ≤ (i 0).val ∧ (i 0).val < win4_3.index t (0 : Fin 2) * 1024 + 1024
    omega
  | ⟨1, _⟩ =>
    show win4_3.index t (1 : Fin 2) * 192 ≤ (i 1).val ∧ (i 1).val < win4_3.index t (1 : Fin 2) * 192 + 192
    omega

theorem final4 (c : Dev nD) :
    (dat4 (F := Ideal) V c).arrAt 3 cfg4.N = addRow (linT (n := 8192) (k := 256) (d := 192) (V c main_v8) (V c main_v1)) (V c main_v9) :=
  (dat4 (F := Ideal) V c).arrAt_eq_of_cover 3 (G4 V c) (fun t _ => flushed4_eq V c t) cover4

end Cert.KernelIdeal.Hand

end
-- ==== Proof.Val5.lean ====
import proofs.«100585_j72756745994352_1_alg».proof.Proof.Gen.KernelIdeal.Launch
import proofs.«100585_j72756745994352_1_alg».proof.Proof.Gen.KernelIdeal.Skeleton
import proofs.«100585_j72756745994352_1_alg».proof.Proof.Gen.KernelIdeal.Points
import proofs.«100585_j72756745994352_1_alg».proof.Proof.R5
import proofs.«100585_j72756745994352_1_alg».proof.Proof.LibAcc
import proofs.«100585_j72756745994352_1_alg».proof.Proof.LibDot

noncomputable section

namespace Cert.KernelIdeal.Hand

open Cert.KernelIdeal Cert.KernelIdeal.Gen
open Idealize.ShloMosaic Idealize.ShloMosaic.TcCoe
open Cert.Spec Idealize.ShloMosaic.ValueIdx

variable (V : (c : Dev nD) → (b : Ref sig .tc) → Buf (Elt Ideal) ((c : Thread nD τ).loc b))

theorem zero5_apply (p : Fin 1024) (q : Fin 192) : (k5_pay1 (F := Ideal)) (ix2 p q) = 0 := by
  unfold k5_pay1
  rw [shapeCast_self]
  exact Ideal.ofBits_zero_f32

theorem step5_apply (y : Vec Ideal S1024x192 .f32) (a : Vec Ideal S1024x2048 .bf16) (h : Vec Ideal S2048x192 .bf16)
    (p : Fin 1024) (q : Fin 192) :
    k5_pay2 y a h (ix2 p q) = y (ix2 p q) + ∑ l : Fin 2048, a (ix2 p l) * h (ix2 l q) := by
  unfold k5_pay2
  rw [shapeCast_self, shapeCast_self, shapeCast_self]
  exact congrArg (y (ix2 p q) + ·) (matmul_plain_apply a h p q)

abbrev lblk5 (c : Dev nD) (t : Fin cfg5.N) : Vec Ideal S1024x2048 .bf16 := iblk5 (F := Ideal) V c 0 t

abbrev rblk5 (c : Dev nD) (t : Fin cfg5.N) : Vec Ideal S2048x192 .bf16 := iblk5 (F := Ideal) V c 1 t

-- Point t is row block t / 4 at contraction step t % 4.
theorem idx5 : ∀ t : Fin cfg5.N,
    win5_0.index t (0 : Fin 2) = t.val / 4 ∧ win5_0.index t (1 : Fin 2) = t.val % 4
    ∧ win5_1.index t (0 : Fin 2) = t.val % 4 ∧ win5_1.index t (1 : Fin 2) = 0
    ∧ win5_2.index t (0 : Fin 2) = t.val / 4 ∧ win5_2.index t (1 : Fin 2) = 0 :=
  (by decide +kernel : ∀ t : Fin grid5.N, _)

theorem lhs5_blk (c : Dev nD) (t : Fin cfg5.N) (p : Fin 1024) (l : Fin 2048) (r g : Fin 8192)
    (hr : r.val = 1024 * (t.val / 4) + p.val) (hg : g.val = 2048 * (t.val % 4) + l.val) :
    lblk5 V c t (ix2 p l) = (V c main_v0 : Mat 8192 8192) (ix2 r g) := by
  obtain ⟨e0, e1, -⟩ := idx5 t
  exact congrArg (V c main_v0) (ix2_of_val (by show win5_0.index t (0 : Fin 2) * 1024 + 1 * p.val = r.val; omega)
    (by show win5_0.index t (1 : Fin 2) * 2048 + 1 * l.val = g.val; omega))

theorem rhs5_blk (c : Dev nD) (t : Fin cfg5.N) (l : Fin 2048) (q : Fin 192) (g : Fin 8192)
    (hg : g.val = 2048 * (t.val % 4) + l.val) :
    rblk5 V c t (ix2 l q) = (V c main_v10 : Mat 8192 192) (ix2 g q) := by
  obtain ⟨-, -, e2, e3, -⟩ := idx5 t
  exact congrArg (V c main_v10) (ix2_of_val (by show win5_1.index t (0 : Fin 2) * 2048 + 1 * l.val = g.val; omega)
    (by show win5_1.index t (1 : Fin 2) * 192 + 1 * q.val = q.val; omega))

theorem out5_blk (t : Fin cfg5.N) (p : Fin 1024) (q : Fin 192) (r : Fin 8192)
    (hr : r.val = 1024 * (t.val / 4) + p.val) :
    ((cfg5.win 2).blk t).view.emb (ix2 p q) = (ix2 r q : S8192x192.Idx) := by
  obtain ⟨-, -, -, -, e4, e5⟩ := idx5 t
  exact ix2_of_val (by show win5_2.index t (0 : Fin 2) * 1024 + 1 * p.val = r.val; omega)
    (by show win5_2.index t (1 : Fin 2) * 192 + 1 * q.val = q.val; omega)

theorem acc5_row (c : Dev nD) (t : Fin cfg5.N) (h3 : t.val % 4 = 3) (p : Fin 1024) (q : Fin 192) (r : Fin 8192)
    (hr : r.val = 1024 * (t.val / 4) + p.val) :
    acc5 (F := Ideal) V c t.val t.isLt (ix2 p q)
      = agg (n := 8192) (k := 8192) (d := 192) (V c main_v0) (V c main_v10) (ix2 r q) :=
  acc_four (V c main_v0) (V c main_v10) (acc5 (F := Ideal) V c) (lblk5 V c) (rblk5 V c) (k5_pay2 (F := Ideal))
    (k5_pay1 (F := Ideal)) step5_apply zero5_apply (lhs5_blk V c) (rhs5_blk V c) (acc5_reset V c) (acc5_step V c)
    t h3 p q r hr

abbrev res5 (c : Dev nD) : Mat 8192 192 :=
  agg (n := 8192) (k := 8192) (d := 192) (V c main_v0) (V c main_v10)

theorem flushed5_eq (c : Dev nD) (t : Fin cfg5.N) (hf : (cfg5.win 2).flush t = true) :
    (dat5 (F := Ideal) V c).flushed 2 t = ((cfg5.win 2).blk t).view.read (Elt Ideal) (res5 V c) := by
  have ht : t.val < 32 := (N_5 : cfg5.N = 32) ▸ t.isLt
  refine ext_ix2 (n := 1024) (d := 192) fun p q => ?_
  show (acc5 (F := Ideal) V c t.val t.isLt : Vec Ideal S1024x192 .f32) (ix2 p q)
    = res5 V c (((cfg5.win 2).blk t).view.emb (ix2 p q))
  rw [out5_blk t p q ⟨1024 * (t.val / 4) + p.val, by omega⟩ rfl]
  exact acc5_row V c t ((flush5_2 t).mp hf) p q _ rfl

-- Row r is in the block of point 4 (r / 1024) + 3.
theorem cover5 (i : S8192x192.Idx) :
    ∃ t : Fin cfg5.N, (cfg5.win 2).flush t = true ∧ i ∈ ((cfg5.win 2).blk t).view.set := by
  have hi : (i 0).val < 8192 := (i 0).isLt
  have hN : cfg5.N = 32 := N_5
  obtain ⟨t, ht⟩ : ∃ t : Fin cfg5.N, t.val = 4 * ((i 0).val / 1024) + 3 := ⟨⟨_, by omega⟩, rfl⟩
  exact ⟨t, (flush5_2 t).mpr (by omega), ((out5_blk t ⟨(i 0).val % 1024, by omega⟩ (i 1) (i 0)
    (by show (i 0).val = 1024 * (t.val / 4) + (i 0).val % 1024; omega)).trans (eq_ix2 i).symm) ▸ View.emb_mem_set _ _⟩

theorem final5 (c : Dev nD) :
    (dat5 (F := Ideal) V c).arrAt 2 cfg5.N = agg (n := 8192) (k := 8192) (d := 192) (V c main_v0) (V c main_v10) :=
  (dat5 (F := Ideal) V c).arrAt_eq_of_cover 2 (res5 V c) (flushed5_eq V c) cover5

end Cert.KernelIdeal.Hand

end
-- ==== Proof.Val6.lean ====
import proofs.«100585_j72756745994352_1_alg».proof.Proof.R6
import proofs.«100585_j72756745994352_1_alg».proof.Proof.Spec
import proofs.«100585_j72756745994352_1_alg».proof.Proof.LibDot

noncomputable section

namespace Cert.KernelIdeal.Hand

open Cert.KernelIdeal Cert.KernelIdeal.Gen
open Idealize.ShloMosaic Idealize.ShloMosaic.TcCoe
open Idealize.SL.Sem

open Cert.Spec Idealize.ShloMosaic.ValueIdx

-- On one entry, comparing with zero and selecting on the outcome is the if-then-else on 0 < y.
theorem leaky6_scalar (s y : EReal) :
    Scalar.select (FloatOps.cmpf (F := Ideal) (φ := .f32) .ogt y (Scalar.ofBits (F := Ideal) .f32 0x00000000#32)) y (s * y)
      = if 0 < y then y else s * y := by
  rw [Ideal.cmpf_def]
  show Scalar.select (Ideal.cmp .ogt y (Ideal.ofBits .f32 0x00000000#32)) y (s * y) = _
  rw [Ideal.ofBits_zero_f32]
  unfold Ideal.cmp Scalar.select
  by_cases h : (0 : EReal) < y
  · rw [if_pos h]; simp [h]
  · rw [if_neg h]; simp [h]

-- The rectifier of the block's rows times the weights' rows plus the bias row laid along every row.
theorem pay6_apply (z : FVec Ideal S1024x192 .f32) (w : FVec Ideal S192x192 .f32) (b : FVec Ideal S1x192 .f32) :
    k6_pay1 (F := Ideal) z w b = leakyGt (Ideal.ofBits .f32 0x3DCCCCCD#32) (addRow (linT z w) b) := by
  refine ext_ix2 fun p q => ?_
  unfold k6_pay1
  simp only [shapeCast_self]
  rw [truncf_apply, select_apply, cmpf_apply, mulf_apply, broadcast_apply, broadcast_apply, addf_apply]
  exact (leaky6_scalar _ _).trans <| congrArg (fun y : EReal => if 0 < y then y else _ * y) <| congrArg₂ (· + ·)
    (matmul_plainT_apply _ _ _ p q)
    (broadcastTo_apply b _ _ (ix2 (0 : Fin 1) q) fun a => by match a with | ⟨0, _⟩ => rfl | ⟨1, _⟩ => rfl)

theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

variable (V : (c : Dev nD) → (b : Ref sig .tc) → Buf (Elt Ideal) ((c : Thread nD τ).loc b))

abbrev G6 (c : Dev nD) : Mat 8192 192 :=
  leakyGt (Ideal.ofBits .f32 0x3DCCCCCD#32) (addRow (linT (n := 8192) (k := 192) (d := 192) (V c main_v11) (V c main_arg7)) (V c main_v2))

-- Row p of block t is row 1024·t + p of the rows' array and of the result; the weights' and the bias's one block is the whole array.
theorem flushed6_eq (c : Dev nD) (t : Fin cfg6.N) :
    (dat6 (F := Ideal) V c).flushed 3 t = ((cfg6.win 3).blk t).view.read (Elt Ideal) (G6 V c) := by
  obtain ⟨e0, e1, e2, e3, e4, e5, e6, e7⟩ := idx6 t
  show (cfg6.win 3).cut (grid6.coords t) ((dat6 (F := Ideal) V c).after 3 t) = _
  rw [after6_3, pay6_apply]
  refine ext_ix2 fun p q => ?_
  show _ = G6 V c (((cfg6.win 3).blk t).view.emb (ix2 p q))
  refine congrArg (fun y : EReal => if 0 < y then y else _ * y) <|
    congrArg₂ (· + ·) (Finset.sum_congr rfl fun l _ => congrArg₂ (· * ·) ?_ ?_) ?_
  · exact congrArg (V c main_v11) (Shape.idx_ext₂
      (by show win6_0.index t (0 : Fin 2) * 1024 + 1 * p.val = win6_3.index t (0 : Fin 2) * 1024 + 1 * p.val; omega)
      (by show win6_0.index t (1 : Fin 2) * 192 + 1 * l.val = l.val; omega))
  · exact congrArg (V c main_arg7) (Shape.idx_ext₂
      (by show win6_1.index t (0 : Fin 2) * 192 + 1 * q.val = win6_3.index t (1 : Fin 2) * 192 + 1 * q.val; omega)
      (by show win6_1.index t (1 : Fin 2) * 192 + 1 * l.val = l.val; omega))
  · exact congrArg (V c main_v2) (Shape.idx_ext₂
      (by show win6_2.index t (0 : Fin 2) * 1 + 1 * 0 = 0; omega)
      (by show win6_2.index t (1 : Fin 2) * 192 + 1 * q.val = win6_3.index t (1 : Fin 2) * 192 + 1 * q.val; omega))

-- Row r of the result lies in the block of point r / 1024.
theorem cover6 (i : S8192x192.Idx) :
    ∃ t : Fin cfg6.N, (cfg6.win 3).flush t = true ∧ i ∈ ((cfg6.win 3).blk t).view.set := by
  have hi0 := idx2_lt0 i
  have hi1 := idx2_lt1 i
  obtain ⟨t, ht⟩ : ∃ t : Fin cfg6.N, t.val = (i 0).val / 1024 :=
    ⟨⟨(i 0).val / 1024, by rw [show cfg6.N = 8 from N_6]; omega⟩, rfl⟩
  obtain ⟨-, -, -, -, -, -, e6, e7⟩ := idx6 t
  refine ⟨t, flush6_3 t, ?_⟩
  show i ∈ ((View.whole main_v12).slice (win6_3.rect t)).set
  rw [View.set_slice_whole, Rect.mem_set_unit]
  intro a
  match a with
  | ⟨0, _⟩ =>
    show win6_3.index t (0 : Fin 2) * 1024 ≤ (i 0).val ∧ (i 0).val < win6_3.index t (0 : Fin 2) * 1024 + 1024
    omega
  | ⟨1, _⟩ =>
    show win6_3.index t (1 : Fin 2) * 192 ≤ (i 1).val ∧ (i 1).val < win6_3.index t (1 : Fin 2) * 192 + 192
    omega

theorem final6 (c : Dev nD) :
    (dat6 (F := Ideal) V c).arrAt 3 cfg6.N = leakyGt (Ideal.ofBits .f32 0x3DCCCCCD#32) (addRow (linT (n := 8192) (k := 192) (d := 192) (V c main_v11) (V c main_arg7)) (V c main_v2)) :=
  (dat6 (F := Ideal) V c).arrAt_eq_of_cover 3 (G6 V c) (fun t _ => flushed6_eq V c t) (cover6)

end Cert.KernelIdeal.Hand

end
-- ==== Proof.Val7.lean ====
import proofs.«100585_j72756745994352_1_alg».proof.Proof.R7
import proofs.«100585_j72756745994352_1_alg».proof.Proof.Spec
import proofs.«100585_j72756745994352_1_alg».proof.Proof.LibDot

noncomputable section

namespace Cert.KernelIdeal.Hand

open Cert.KernelIdeal Cert.KernelIdeal.Gen
open Idealize.ShloMosaic Idealize.ShloMosaic.TcCoe
open Idealize.SL.Sem

open Cert.Spec Idealize.ShloMosaic.ValueIdx

variable (V : (c : Dev nD) → (b : Ref sig .tc) → Buf (Elt Ideal) ((c : Thread nD τ).loc b))

theorem pay7_apply (x : FVec Ideal S2048x192 .f32) (y : FVec Ideal S1024x192 .bf16) :
    k7_pay1 (F := Ideal) x y = linT x y := by
  refine ext_ix2 fun p q => ?_
  unfold k7_pay1
  simp only [shapeCast_self]
  exact matmul_plainT_apply _ _ _ p q

theorem idx_facts7 : ∀ t : Fin cfg7.N,
    win7_0.index t (0 : Fin 2) = t.val / 8 ∧ win7_0.index t (1 : Fin 2) = 0
    ∧ win7_1.index t (0 : Fin 2) = t.val % 8 ∧ win7_1.index t (1 : Fin 2) = 0
    ∧ win7_2.index t (0 : Fin 2) = t.val / 8 ∧ win7_2.index t (1 : Fin 2) = t.val % 8 :=
  (by decide +kernel : ∀ t : Fin grid7.N, _)

-- Block (t / 8, t % 8) of the result is row block t / 8 of the first array against row block t % 8 of the second.
theorem flushed7_eq (c : Dev nD) (t : Fin cfg7.N) :
    (dat7 (F := Ideal) V c).flushed 2 t
      = ((cfg7.win 2).blk t).view.read (Elt Ideal)
          (linT (n := 8192) (k := 192) (d := 8192) (V c main_v11) (V c main_v12)) := by
  obtain ⟨e0, e1, e2, e3, e4, e5⟩ := idx_facts7 t
  show (cfg7.win 2).cut (grid7.coords t) ((dat7 (F := Ideal) V c).after 2 t) = _
  rw [after7_2, pay7_apply]
  refine ext_ix2 fun p q => ?_
  show _ = linT (n := 8192) (k := 192) (d := 8192) (V c main_v11) (V c main_v12) (((cfg7.win 2).blk t).view.emb (ix2 p q))
  refine Finset.sum_congr rfl fun l _ => congrArg₂ (· * ·) ?_ ?_
  · exact congrArg (V c main_v11) (Shape.idx_ext₂
      (by show win7_0.index t (0 : Fin 2) * 2048 + 1 * p.val = win7_2.index t (0 : Fin 2) * 2048 + 1 * p.val; omega)
      (by show win7_0.index t (1 : Fin 2) * 192 + 1 * l.val = l.val; omega))
  · exact congrArg (V c main_v12) (Shape.idx_ext₂
      (by show win7_1.index t (0 : Fin 2) * 1024 + 1 * q.val = win7_2.index t (1 : Fin 2) * 1024 + 1 * q.val; omega)
      (by show win7_1.index t (1 : Fin 2) * 192 + 1 * l.val = l.val; omega))

-- Entry (r, s) lies in the block of point 8 · (r / 2048) + s / 1024.
theorem cover7 (i : S8192x8192.Idx) :
    ∃ t : Fin cfg7.N, (cfg7.win 2).flush t = true ∧ i ∈ ((cfg7.win 2).blk t).view.set := by
  have hi0 := idx2_lt0 i
  have hi1 := idx2_lt1 i
  obtain ⟨t, ht⟩ : ∃ t : Fin cfg7.N, t.val = 8 * ((i 0).val / 2048) + (i 1).val / 1024 :=
    ⟨⟨8 * ((i 0).val / 2048) + (i 1).val / 1024, by rw [show cfg7.N = 32 from N_7]; omega⟩, rfl⟩
  obtain ⟨-, -, -, -, e4, e5⟩ := idx_facts7 t
  refine ⟨t, flush7_2 t, ?_⟩
  show i ∈ ((View.whole main_v13).slice (win7_2.rect t)).set
  rw [View.set_slice_whole, Rect.mem_set_unit]
  intro a
  match a with
  | ⟨0, _⟩ =>
    show win7_2.index t (0 : Fin 2) * 2048 ≤ (i 0).val ∧ (i 0).val < win7_2.index t (0 : Fin 2) * 2048 + 2048
    omega
  | ⟨1, _⟩ =>
    show win7_2.index t (1 : Fin 2) * 1024 ≤ (i 1).val ∧ (i 1).val < win7_2.index t (1 : Fin 2) * 1024 + 1024
    omega

theorem final7 (c : Dev nD) :
    (dat7 (F := Ideal) V c).arrAt 2 cfg7.N = linT (n := 8192) (k := 192) (d := 8192) (V c main_v11) (V c main_v12) :=
  (dat7 (F := Ideal) V c).arrAt_eq_of_cover 2 _ (fun t _ => flushed7_eq V c t) cover7

end Cert.KernelIdeal.Hand

end
-- ==== Proof.KAux.lean ====
import proofs.«100585_j72756745994352_1_alg».proof.Proof.Gen.KernelIdeal.Launch
import proofs.«100585_j72756745994352_1_alg».proof.Proof.Spec
import Idealize.ShloMosaic.Lib.Pipeline.Value

noncomputable section

namespace Cert.KernelIdeal.Hand

open Cert.KernelIdeal Cert.KernelIdeal.Gen Idealize.ShloMosaic Cert.Spec Idealize.ShloMosaic.ValueIdx

-- Piece p of the concatenation along the rows holds rows 64·p … 64·p + 63.
theorem kcat_eq (W1 W2 W3 : FVec Ideal S64x256 .f32) :
    concatenate S192x256 0 [⟨S64x256, W1⟩, ⟨S64x256, W2⟩, ⟨S64x256, W3⟩] concatenates_S64x256_S64x256_S64x256_S192x256_d0
      = catRows (k := 256) W1 W2 W3 := by
  funext j
  unfold catRows
  have piece := fun (p : ℕ) (hp : p < 3) (x : FVec Ideal S64x256 .f32) hx (r : Fin 64) (hr : 64 * p + r.val = (j 0).val) =>
    concatenate_apply_piece (0 : Fin S192x256.rank) [⟨S64x256, W1⟩, ⟨S64x256, W2⟩, ⟨S64x256, W3⟩]
      concatenates_S64x256_S64x256_S64x256_S192x256_d0 j p hp S64x256 x hx rfl (64 * p)
      (by interval_cases p <;> rfl) (ix2 r (j 1))
      (fun b hb => by match b with | ⟨0, _⟩ => exact absurd (Fin.ext rfl) hb | ⟨1, _⟩ => rfl) hr
  by_cases h1 : (j 0).val < 64
  · rw [dif_pos h1]; exact piece 0 (by omega) W1 rfl _ (by show 64 * 0 + (j 0).val = _; omega)
  · rw [dif_neg h1]
    by_cases h2 : (j 0).val < 128
    · rw [dif_pos h2]; exact piece 1 (by omega) W2 rfl _ (by show 64 * 1 + ((j 0).val - 64) = _; omega)
    · rw [dif_neg h2]; exact piece 2 (by omega) W3 rfl _ (by show 64 * 2 + ((j 0).val - 128) = _; omega)

-- Entry (0, j) of the one-row array sits at row-major position j, as entry j of the vector does.
theorem kbias_eq (b : FVec Ideal S192 .f32) :
    shapeCast S1x192 b shapeCasts_S192_S1x192 = fun i => b (ix1 (i 1)) := by
  funext i
  refine shapeCast_apply b shapeCasts_S192_S1x192 i (ix1 (n := 192) (i 1)) ?_
  rw [Shape.rowMajor_val_two, Shape.rowMajor_val_one]
  have := idx2_lt0 (n0 := 1) (n1 := 192) i
  show (i 1).val = (i 0).val * 192 + (i 1).val
  omega

end Cert.KernelIdeal.Hand

end
-- ==== Proof.Net.lean ====
import proofs.«100585_j72756745994352_1_alg».proof.Proof.Spec

noncomputable section

namespace Cert.Spec

open Idealize.ShloMosaic Idealize.ShloMosaic.ValueIdx

theorem addRow_zero {n d : ℕ} (Y : Mat n d) (B : Mat 1 d) (hB : ∀ i, B i = 0) : addRow Y B = Y := by
  funext i; unfold addRow; rw [hB, add_zero]

theorem agg_linT_catRows {n k : ℕ} (A : Mat n n) (X : Mat n k) (W1 W2 W3 : Mat 64 k) :
    agg A (linT X (catRows W1 W2 W3)) = catCols (agg A (linT X W1)) (agg A (linT X W2)) (agg A (linT X W3)) := by
  rw [linT_catRows, agg_catCols]

def slope : EReal := Ideal.ofBits .f32 0x3DCCCCCD#32

variable (A : Mat 8192 8192) (X : Mat 8192 1024) (W1 : Mat 512 1024) (W2 : Mat 256 512) (Wm1 Wm2 Wm3 : Mat 64 256)
  (Wt : Mat 192 192) (Bt : Mat 1 192)

def netX1 : Mat 8192 512 := relu (agg A (linT X W1))

def netX2 : Mat 8192 256 := relu (agg A (linT (netX1 A X W1) W2))

def netZ : Mat 8192 192 :=
  catCols (agg A (linT (netX2 A X W1 W2) Wm1)) (agg A (linT (netX2 A X W1 W2) Wm2)) (agg A (linT (netX2 A X W1 W2) Wm3))

def netTZ : Mat 8192 192 := leakyGe slope (addRow (linT (netZ A X W1 W2 Wm1 Wm2 Wm3) Wt) Bt)

def netPred : Mat 8192 8192 := linT (netZ A X W1 W2 Wm1 Wm2 Wm3) (netTZ A X W1 W2 Wm1 Wm2 Wm3 Wt Bt)

end Cert.Spec

end
-- ==== Proof.KVal.lean ====
import proofs.«100585_j72756745994352_1_alg».proof.Proof.Entry
import proofs.«100585_j72756745994352_1_alg».proof.Proof.Val0
import proofs.«100585_j72756745994352_1_alg».proof.Proof.Val1
import proofs.«100585_j72756745994352_1_alg».proof.Proof.Val2
import proofs.«100585_j72756745994352_1_alg».proof.Proof.Val3
import proofs.«100585_j72756745994352_1_alg».proof.Proof.Val4
import proofs.«100585_j72756745994352_1_alg».proof.Proof.Val5
import proofs.«100585_j72756745994352_1_alg».proof.Proof.Val6
import proofs.«100585_j72756745994352_1_alg».proof.Proof.Val7
import proofs.«100585_j72756745994352_1_alg».proof.Proof.KAux
import proofs.«100585_j72756745994352_1_alg».proof.Proof.Net

noncomputable section

namespace Cert.KernelIdeal.Hand

open Cert.KernelIdeal Cert.KernelIdeal.Gen Idealize.ShloMosaic Idealize.ShloMosaic.TcCoe Cert.Spec Idealize.ShloMosaic.ValueIdx

variable (m : (ℓ : Loc nD τ sig) → Buf (Elt Ideal) ℓ) (ρ : Dev nD → PrngReg) (c : Dev nD)

abbrev kA : Mat 8192 8192 := m ((c : Thread nD τ).loc main_arg0)
abbrev kX : Mat 8192 1024 := m ((c : Thread nD τ).loc main_arg1)
abbrev kW1 : Mat 512 1024 := m ((c : Thread nD τ).loc main_arg2)
abbrev kW2 : Mat 256 512 := m ((c : Thread nD τ).loc main_arg3)
abbrev kWm1 : Mat 64 256 := m ((c : Thread nD τ).loc main_arg4)
abbrev kWm2 : Mat 64 256 := m ((c : Thread nD τ).loc main_arg5)
abbrev kWm3 : Mat 64 256 := m ((c : Thread nD τ).loc main_arg6)
abbrev kWt : Mat 192 192 := m ((c : Thread nD τ).loc main_arg7)
def kBt : Mat 1 192 := fun i => m ((c : Thread nD τ).loc main_arg8) (ix1 (i 1))

-- A splat of the zero pattern is zero at every entry.
theorem zrow (s : Shape) (hb : S_.BroadcastsInDim s (![] : Fin 0 → Fin s.rank)) (i : s.Idx) :
    broadcastInDim s ![] hb (constant (F := Ideal) S_ .f32 0x00000000#32) i = 0 :=
  Ideal.ofBits_zero_f32

theorem x1_eq : (dat1 (V2 m ρ) c).arrAt 2 cfg1.N = netX1 (kA m c) (kX m c) (kW1 m c) := by
  rw [final1, V2_adj, V2_h, final0, V1_x, V1_w, V1_b, addRow_zero _ _ (zrow _ _)]
  rfl

theorem x2_eq : (dat3 (V5 m ρ) c).arrAt 2 cfg3.N = netX2 (kA m c) (kX m c) (kW1 m c) (kW2 m c) := by
  rw [final3, V5_adj, V5_h, final2, V4_x, V4_w, V4_b, addRow_zero _ _ (zrow _ _), x1_eq]
  rfl

theorem z_eq : (dat5 (V8 m ρ) c).arrAt 2 cfg5.N
    = netZ (kA m c) (kX m c) (kW1 m c) (kW2 m c) (kWm1 m c) (kWm2 m c) (kWm3 m c) := by
  rw [final5, V8_adj, V8_h, final4, V7_x, V7_w, V7_b, addRow_zero _ _ (zrow _ _), x2_eq, kcat_eq]
  exact agg_linT_catRows _ _ _ _ _

theorem tz_eq : (dat6 (V9 m ρ) c).arrAt 3 cfg6.N
    = netTZ (kA m c) (kX m c) (kW1 m c) (kW2 m c) (kWm1 m c) (kWm2 m c) (kWm3 m c) (kWt m c) (kBt m c) := by
  rw [final6, V9_x, V9_w, V9_b, z_eq, kbias_eq]
  exact leakyGt_eq_leakyGe _ _

theorem out_pred : W12 m ρ c (Proc.devRef .tc main_v13)
    = netPred (kA m c) (kX m c) (kW1 m c) (kW2 m c) (kWm1 m c) (kWm2 m c) (kWm3 m c) (kWt m c) (kBt m c) := by
  rw [W12_pred, final7, V10_z, V10_tz, z_eq, tz_eq]
  rfl
theorem out_z : W12 m ρ c (Proc.devRef .tc main_v11)
    = netZ (kA m c) (kX m c) (kW1 m c) (kW2 m c) (kWm1 m c) (kWm2 m c) (kWm3 m c) :=
  (W12_z m ρ c).trans (z_eq m ρ c)
theorem out_s1 : W12 m ρ c (Proc.devRef .tc main_v19) = sigm512 (F := Ideal) (netX1 (kA m c) (kX m c) (kW1 m c)) :=
  (W12_s1 m ρ c).trans (congrArg (sigm512 (F := Ideal)) (x1_eq m ρ c))
theorem out_s2 : W12 m ρ c (Proc.devRef .tc main_v25) = sigm256 (F := Ideal) (netX2 (kA m c) (kX m c) (kW1 m c) (kW2 m c)) :=
  (W12_s2 m ρ c).trans (congrArg (sigm256 (F := Ideal)) (x2_eq m ρ c))

end Cert.KernelIdeal.Hand

end
-- ==== Proof.RefTerms.lean ====
import proofs.«100585_j72756745994352_1_alg».proof.ReferenceIdeal
import proofs.«100585_j72756745994352_1_alg».proof.Proof.Gen.ReferenceIdeal
import Idealize.ShloMosaic.Lib.StableHlo.Run

noncomputable section

namespace Cert.ReferenceIdeal.Hand

open Cert.ReferenceIdeal
open Cert.ReferenceIdeal.Facts₀
open Idealize.ShloMosaic Idealize.ShloMosaic.TcCoe Idealize.SL.Sem

variable {F : FTy → Type} [FloatOps F]

def linS1 (x : FVec F S8192x1024 .f32) (w : FVec F S512x1024 .f32) : FVec F S8192x512 .f32 :=
  Host.dotGeneral dot_S8192x1024_S1024x512_S8192x512_1_0_0_1_n_n none x (transpose S1024x512 [1, 0] w transposes_S512x1024_S1024x512_1_0)
def aggS1 (a : FVec F S8192x8192 .f32) (h : FVec F S8192x512 .f32) : FVec F S8192x512 .f32 :=
  Host.dotGeneral dot_S8192x8192_S8192x512_S8192x512_1_0_0_1_n_n none a h
def reluS1 (y : FVec F S8192x512 .f32) : FVec F S8192x512 .f32 :=
  maximumf y (broadcastInDim S8192x512 ![] bcast_S_S8192x512 (constant (F := F) S_ .f32 0x00000000#32))

def linS2 (x : FVec F S8192x512 .f32) (w : FVec F S256x512 .f32) : FVec F S8192x256 .f32 :=
  Host.dotGeneral dot_S8192x512_S512x256_S8192x256_1_0_0_1_n_n none x (transpose S512x256 [1, 0] w transposes_S256x512_S512x256_1_0)
def aggS2 (a : FVec F S8192x8192 .f32) (h : FVec F S8192x256 .f32) : FVec F S8192x256 .f32 :=
  Host.dotGeneral dot_S8192x8192_S8192x256_S8192x256_1_0_0_1_n_n none a h
def reluS2 (y : FVec F S8192x256 .f32) : FVec F S8192x256 .f32 :=
  maximumf y (broadcastInDim S8192x256 ![] bcast_S_S8192x256 (constant (F := F) S_ .f32 0x00000000#32))

def linS3 (x : FVec F S8192x256 .f32) (w : FVec F S64x256 .f32) : FVec F S8192x64 .f32 :=
  Host.dotGeneral dot_S8192x256_S256x64_S8192x64_1_0_0_1_n_n none x (transpose S256x64 [1, 0] w transposes_S64x256_S256x64_1_0)
def aggS3 (a : FVec F S8192x8192 .f32) (h : FVec F S8192x64 .f32) : FVec F S8192x64 .f32 :=
  Host.dotGeneral dot_S8192x8192_S8192x64_S8192x64_1_0_0_1_n_n none a h
def catS (m1 m2 m3 : FVec F S8192x64 .f32) : FVec F S8192x192 .f32 :=
  concatenate S8192x192 1 [⟨S8192x64, m1⟩, ⟨S8192x64, m2⟩, ⟨S8192x64, m3⟩] concatenates_S8192x64_S8192x64_S8192x64_S8192x192_d1

def linS4 (z : FVec F S8192x192 .f32) (w : FVec F S192x192 .f32) : FVec F S8192x192 .f32 :=
  Host.dotGeneral dot_S8192x192_S192x192_S8192x192_1_0_0_1_n_n none z (transpose S192x192 [1, 0] w transposes_S192x192_S192x192_1_0)
def biasS4 (y : FVec F S8192x192 .f32) (b : FVec F S192 .f32) : FVec F S8192x192 .f32 :=
  addf y (broadcastInDim S8192x192 ![0, 1] bcast_S1x192_S8192x192_0_1 (broadcastInDim S1x192 ![1] bcast_S192_S1x192_1 b))

def leakyS4 (y : FVec F S8192x192 .f32) : FVec F S8192x192 .f32 :=
  select (cmpf .oge y (broadcastInDim S8192x192 ![] bcast_S_S8192x192 (constant (F := F) S_ .f32 0x00000000#32))) y
    (mulf (broadcastInDim S8192x192 ![] bcast_S_S8192x192 (id (constant (F := F) S_ .f32 0x3DCCCCCD#32))) y)
def predS (z : FVec F S8192x192 .f32) (tz : FVec F S8192x192 .f32) : FVec F S8192x8192 .f32 :=
  Host.dotGeneral dot_S8192x192_S192x8192_S8192x8192_1_0_0_1_n_n none z (transpose S192x8192 [1, 0] tz transposes_S8192x192_S192x8192_1_0)

def sigmS {s : Shape} (hb : S_.BroadcastsInDim s (![] : Fin 0 → Fin s.rank)) (x : FVec F s .f32) : FVec F s .f32 :=
  Host.divf (broadcastInDim s ![] hb (constant (F := F) S_ .f32 0x3F800000#32))
    (addf (broadcastInDim s ![] hb (constant (F := F) S_ .f32 0x3F800000#32)) (Host.exp (Host.negf x)))

variable (m : (ℓ : Loc nD τ sig) → Buf (Elt F) ℓ) (c : Dev nD)

abbrev aAdj : FVec F S8192x8192 .f32 := m ((c : Thread nD τ).loc main_arg0)
abbrev aX : FVec F S8192x1024 .f32 := m ((c : Thread nD τ).loc main_arg1)
abbrev aW1 : FVec F S512x1024 .f32 := m ((c : Thread nD τ).loc main_arg2)
abbrev aW2 : FVec F S256x512 .f32 := m ((c : Thread nD τ).loc main_arg3)
abbrev aWm1 : FVec F S64x256 .f32 := m ((c : Thread nD τ).loc main_arg4)
abbrev aWm2 : FVec F S64x256 .f32 := m ((c : Thread nD τ).loc main_arg5)
abbrev aWm3 : FVec F S64x256 .f32 := m ((c : Thread nD τ).loc main_arg6)
abbrev aWt : FVec F S192x192 .f32 := m ((c : Thread nD τ).loc main_arg7)
abbrev aBt : FVec F S192 .f32 := m ((c : Thread nD τ).loc main_arg8)

def rX1 : FVec F S8192x512 .f32 := reluS1 (aggS1 (aAdj m c) (linS1 (aX m c) (aW1 m c)))
def rX2 : FVec F S8192x256 .f32 := reluS2 (aggS2 (aAdj m c) (linS2 (rX1 m c) (aW2 m c)))
def rZ : FVec F S8192x192 .f32 :=
  catS (aggS3 (aAdj m c) (linS3 (rX2 m c) (aWm1 m c))) (aggS3 (aAdj m c) (linS3 (rX2 m c) (aWm2 m c))) (aggS3 (aAdj m c) (linS3 (rX2 m c) (aWm3 m c)))
def rTZ : FVec F S8192x192 .f32 := leakyS4 (biasS4 (linS4 (rZ m c) (aWt m c)) (aBt m c))
def rPred : FVec F S8192x8192 .f32 := predS (rZ m c) (rTZ m c)
def rS1 : FVec F S8192x512 .f32 := sigmS bcast_S_S8192x512 (rX1 m c)
def rS2 : FVec F S8192x256 .f32 := sigmS bcast_S_S8192x256 (rX2 m c)

end Cert.ReferenceIdeal.Hand

end
-- ==== Proof.RefRun.lean ====
import proofs.«100585_j72756745994352_1_alg».proof.Proof.RefTerms
import Idealize.ShloMosaic.Lib.StableHlo.Run
import Idealize.ShloMosaic.Adequacy
import Idealize.ShloMosaic.Init

noncomputable section

namespace Cert.ReferenceIdeal.Hand

open Cert.ReferenceIdeal
open Cert.ReferenceIdeal.Facts₀
open Idealize.ShloMosaic Idealize.ShloMosaic.TcCoe Idealize.SL.Sem
open Idealize.ShloMosaic.StableHlo

variable {F : FTy → Type} [FloatOps F]

-- An operation over three literal operands reads each operand at its own reference.
theorem nary3_result' {τ' : Topo} {sig' : RefSig} {Val : EltTy → Type} {x a b y : Ref sig' .tc}
    (f : ((k : Fin 3) → ((![x, a, b] : Fin 3 → Ref sig' .tc) k).ty.Contents Val) → y.ty.Contents Val) (hxs hy)
    (V : Valuation τ' sig' Val) :
    (nary (τ := τ') ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

abbrev ops : List (HloOp τ sig (Elt F)) :=
  [ unary main_arg2 main_v0 (transpose S1024x512 [1, 0] · transposes_S512x1024_S1024x512_1_0),
    binary main_arg1 main_v0 main_v1 (fun l r => Host.dotGeneral dot_S8192x1024_S1024x512_S8192x512_1_0_0_1_n_n none l r),
    binary main_arg0 main_v1 main_v2 (fun l r => Host.dotGeneral dot_S8192x8192_S8192x512_S8192x512_1_0_0_1_n_n none l r),
    TRef.nullary main_call0.cst (constant S_ .f32 0x00000000#32),
    TRef.unary main_call0.cst main_call0.v0 (broadcastInDim S8192x512 ![] bcast_S_S8192x512),
    TRef.binary (.of main_v2 : StableHlo.TRef sig ⟨S8192x512, .f32⟩) main_call0.v0 main_call0.v1 maximumf,
    unary main_arg3 main_v4 (transpose S512x256 [1, 0] · transposes_S256x512_S512x256_1_0),
    binary main_v3 main_v4 main_v5 (fun l r => Host.dotGeneral dot_S8192x512_S512x256_S8192x256_1_0_0_1_n_n none l r),
    binary main_arg0 main_v5 main_v6 (fun l r => Host.dotGeneral dot_S8192x8192_S8192x256_S8192x256_1_0_0_1_n_n none l r),
    TRef.nullary main_call1.cst (constant S_ .f32 0x00000000#32),
    TRef.unary main_call1.cst main_call1.v0 (broadcastInDim S8192x256 ![] bcast_S_S8192x256),
    TRef.binary (.of main_v6 : StableHlo.TRef sig ⟨S8192x256, .f32⟩) main_call1.v0 main_call1.v1 maximumf,
    unary main_arg4 main_v8 (transpose S256x64 [1, 0] · transposes_S64x256_S256x64_1_0),
    binary main_v7 main_v8 main_v9 (fun l r => Host.dotGeneral dot_S8192x256_S256x64_S8192x64_1_0_0_1_n_n none l r),
    binary main_arg0 main_v9 main_v10 (fun l r => Host.dotGeneral dot_S8192x8192_S8192x64_S8192x64_1_0_0_1_n_n none l r),
    unary main_arg5 main_v11 (transpose S256x64 [1, 0] · transposes_S64x256_S256x64_1_0),
    binary main_v7 main_v11 main_v12 (fun l r => Host.dotGeneral dot_S8192x256_S256x64_S8192x64_1_0_0_1_n_n none l r),
    binary main_arg0 main_v12 main_v13 (fun l r => Host.dotGeneral dot_S8192x8192_S8192x64_S8192x64_1_0_0_1_n_n none l r),
    unary main_arg6 main_v14 (transpose S256x64 [1, 0] · transposes_S64x256_S256x64_1_0),
    binary main_v7 main_v14 main_v15 (fun l r => Host.dotGeneral dot_S8192x256_S256x64_S8192x64_1_0_0_1_n_n none l r),
    binary main_arg0 main_v15 main_v16 (fun l r => Host.dotGeneral dot_S8192x8192_S8192x64_S8192x64_1_0_0_1_n_n none l r),
    nary ![main_v10, main_v13, main_v16] main_v17 (fun u => concatenate S8192x192 1 [⟨S8192x64, u 0⟩, ⟨S8192x64, u 1⟩, ⟨S8192x64, u 2⟩] concatenates_S8192x64_S8192x64_S8192x64_S8192x192_d1),
    unary main_arg7 main_v18 (transpose S192x192 [1, 0] · transposes_S192x192_S192x192_1_0),
    binary main_v17 main_v18 main_v19 (fun l r => Host.dotGeneral dot_S8192x192_S192x192_S8192x192_1_0_0_1_n_n none l r),
    unary main_arg8 main_v20 (broadcastInDim S1x192 ![1] bcast_S192_S1x192_1),
    unary main_v20 main_v21 (broadcastInDim S8192x192 ![0, 1] bcast_S1x192_S8192x192_0_1),
    binary main_v19 main_v21 main_v22 addf,
    nullary main_cst (constant S_ .f32 0x3DCCCCCD#32),
    TRef.nullary main_call2.cst (constant S_ .f32 0x00000000#32),
    TRef.unary main_call2.cst main_call2.v0 (broadcastInDim S8192x192 ![] bcast_S_S8192x192),
    TRef.binary (.of main_v22 : StableHlo.TRef sig ⟨S8192x192, .f32⟩) main_call2.v0 main_call2.v1 (cmpf .oge),
    TRef.unary (.of main_cst : StableHlo.TRef sig ⟨S_, .f32⟩) main_call2.v2 id,
    TRef.unary main_call2.v2 main_call2.v3 (broadcastInDim S8192x192 ![] bcast_S_S8192x192),
    TRef.binary main_call2.v3 (.of main_v22 : StableHlo.TRef sig ⟨S8192x192, .f32⟩) main_call2.v4 mulf,
    TRef.ternary main_call2.v1 (.of main_v22 : StableHlo.TRef sig ⟨S8192x192, .f32⟩) main_call2.v4 main_call2.call0.v0 select,
    unary main_v23 main_v24 (transpose S192x8192 [1, 0] · transposes_S8192x192_S192x8192_1_0),
    binary main_v17 main_v24 main_v25 (fun l r => Host.dotGeneral dot_S8192x192_S192x8192_S8192x8192_1_0_0_1_n_n none l r),
    unary main_v3 main_v26 Host.negf,
    unary main_v26 main_v27 Host.exp,
    nullary main_cst_0 (constant S_ .f32 0x3F800000#32),
    unary main_cst_0 main_v28 (broadcastInDim S8192x512 ![] bcast_S_S8192x512),
    binary main_v28 main_v27 main_v29 addf,
    nullary main_cst_1 (constant S_ .f32 0x3F800000#32),
    unary main_cst_1 main_v30 (broadcastInDim S8192x512 ![] bcast_S_S8192x512),
    binary main_v30 main_v29 main_v31 Host.divf,
    unary main_v7 main_v32 Host.negf,
    unary main_v32 main_v33 Host.exp,
    nullary main_cst_2 (constant S_ .f32 0x3F800000#32),
    unary main_cst_2 main_v34 (broadcastInDim S8192x256 ![] bcast_S_S8192x256),
    binary main_v34 main_v33 main_v35 addf,
    nullary main_cst_3 (constant S_ .f32 0x3F800000#32),
    unary main_cst_3 main_v36 (broadcastInDim S8192x256 ![] bcast_S_S8192x256),
    binary main_v36 main_v35 main_v37 Host.divf ]

set_option maxRecDepth 2048 in
theorem main_eq (c : Dev nD) : main (F := F) c = seq ops := by
  simp only [main, fn_relu.body, fn_relu_0.body, fn_leaky_relu.body, fn_where.body, ops, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, List.Forall, nullary_bufs_sub, unary_bufs_sub, binary_bufs_sub, ternary_bufs_sub, nary_bufs_sub, and_self]

variable (m : (ℓ : Loc nD τ sig) → Buf (Elt F) ℓ) (ρ : Dev nD → PrngReg)

-- Each result is the composition of the operations' functions applied to the arguments.
theorem ops_res (c : Dev nD) : after ops (launchContents m c) (Proc.devRef .tc main_v25) = rPred m c
    ∧ after ops (launchContents m c) (Proc.devRef .tc main_v31) = rS1 m c
    ∧ after ops (launchContents m c) (Proc.devRef .tc main_v37) = rS2 m c
    ∧ after ops (launchContents m c) (Proc.devRef .tc main_v17) = rZ m c := by
  refine ⟨?_, ?_, ?_, ?_⟩ <;>
    simp (disch := decide) only [ops, after_cons, after_nil, nullary_result', unary_result', binary_result', ternary_result',
    nary3_result', nullary_result_ne', unary_result_ne', binary_result_ne', ternary_result_ne', nary_result_ne'] <;> rfl

-- No operation writes an argument.
theorem run : θ_run (defs (F := F)) (onTc (τ := τ) (main (F := F))) ⟨m, fun _ => 0, ρ⟩ (fun r => ∀ c : Dev nD,
      r.2.mem ((c.tc : Thread nD τ).loc main_v25) = rPred m c
      ∧ r.2.mem ((c.tc : Thread nD τ).loc main_v31) = rS1 m c
      ∧ r.2.mem ((c.tc : Thread nD τ).loc main_v37) = rS2 m c
      ∧ r.2.mem ((c.tc : Thread nD τ).loc main_v17) = rZ m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun _ h c => ⟨(h c main_v25).trans (ops_res m c).1, (h c main_v31).trans (ops_res m c).2.1,
      (h c main_v37).trans (ops_res m c).2.2.1, (h c main_v17).trans (ops_res m c).2.2.2,
      (h c main_arg0).trans ?_, (h c main_arg1).trans ?_, (h c main_arg2).trans ?_, (h c main_arg3).trans ?_, (h c main_arg4).trans ?_, (h c main_arg5).trans ?_, (h c main_arg6).trans ?_, (h c main_arg7).trans ?_, (h c main_arg8).trans ?_⟩)
    (run_seq scopedRefs_eq scopedSems_eq defs main (fun _ => ops) main_eq (fun _ => ops_sub) m ρ)
  all_goals
    simp (disch := decide) only [ops, after_cons, after_nil, nullary_result', unary_result', binary_result', ternary_result',
    nary3_result', nullary_result_ne', unary_result_ne', binary_result_ne', ternary_result_ne', nary_result_ne'] <;> rfl

end Cert.ReferenceIdeal.Hand

end
-- ==== Proof.RefVal.lean ====
import proofs.«100585_j72756745994352_1_alg».proof.Proof.RefTerms
import proofs.«100585_j72756745994352_1_alg».proof.Proof.Spec
import proofs.«100585_j72756745994352_1_alg».proof.Proof.LibDot
import Idealize.ShloMosaic.Lib.ValueLayout

noncomputable section

namespace Cert.ReferenceIdeal.Hand

open Cert.ReferenceIdeal
open Cert.ReferenceIdeal.Facts₀
open Idealize.ShloMosaic Idealize.ShloMosaic.TcCoe Idealize.SL.Sem

open Cert.Spec Idealize.ShloMosaic.ValueIdx

section Stages
variable {n k d : ℕ}

-- The transposed array at (l, j) is the weights at (j, l), so the plain product's entry is the sum of x (r, l) · w (j, l).
theorem plain_linT (ht : (⟨2, ![d, k]⟩ : Shape).Transposes [1, 0] ⟨2, ![k, d]⟩)
    (x : FVec Ideal ⟨2, ![n, k]⟩ .f32) (w : FVec Ideal ⟨2, ![d, k]⟩ .f32) :
    Host.dotGeneral (DotDims.plain n k d) none x (transpose ⟨2, ![k, d]⟩ [1, 0] w ht) = linT x w :=
  ext_ix2 fun r j => (StackMember.dotGeneral_plain_apply none x _ r j).trans <| Finset.sum_congr rfl fun l _ =>
    congrArg (x _ * ·) (transpose_apply [1, 0] w ht (ix2 l j) (ix2 j l) fun b => by match b with | ⟨0, _⟩ => rfl | ⟨1, _⟩ => rfl)

theorem plain_agg (a : FVec Ideal ⟨2, ![n, k]⟩ .f32) (h : FVec Ideal ⟨2, ![k, d]⟩ .f32) :
    Host.dotGeneral (DotDims.plain n k d) none a h = agg a h :=
  ext_ix2 (StackMember.dotGeneral_plain_apply none a h)

-- A scalar constant broadcast to every entry reads as that constant.
theorem bcast_const (hb : S_.BroadcastsInDim (⟨2, ![n, d]⟩ : Shape) (![] : Fin 0 → Fin 2)) (v : BitVec 32)
    (i : (⟨2, ![n, d]⟩ : Shape).Idx) :
    broadcastInDim ⟨2, ![n, d]⟩ ![] hb (constant (F := Ideal) S_ .f32 v) i = Ideal.ofBits .f32 v :=
  broadcastInDim_apply _ hb _ i ix0 fun a => a.elim0

theorem max_zero_relu (hb : S_.BroadcastsInDim (⟨2, ![n, d]⟩ : Shape) (![] : Fin 0 → Fin 2))
    (y : FVec Ideal ⟨2, ![n, d]⟩ .f32) :
    maximumf y (broadcastInDim ⟨2, ![n, d]⟩ ![] hb (constant (F := Ideal) S_ .f32 0x00000000#32)) = relu y :=
  funext fun i => by
    rw [maximumf_apply, bcast_const, Ideal.ofBits_zero_f32]
    rfl

end Stages

theorem linS1_eq (x : FVec Ideal S8192x1024 .f32) (w : FVec Ideal S512x1024 .f32) : linS1 x w = linT (n := 8192) (k := 1024) (d := 512) x w :=
  plain_linT transposes_S512x1024_S1024x512_1_0 x w
theorem aggS1_eq (a : FVec Ideal S8192x8192 .f32) (h : FVec Ideal S8192x512 .f32) : aggS1 a h = agg (n := 8192) (k := 8192) (d := 512) a h :=
  plain_agg a h
theorem reluS1_eq (y : FVec Ideal S8192x512 .f32) : reluS1 y = relu (n := 8192) (d := 512) y :=
  max_zero_relu bcast_S_S8192x512 y
theorem linS2_eq (x : FVec Ideal S8192x512 .f32) (w : FVec Ideal S256x512 .f32) : linS2 x w = linT (n := 8192) (k := 512) (d := 256) x w :=
  plain_linT transposes_S256x512_S512x256_1_0 x w
theorem aggS2_eq (a : FVec Ideal S8192x8192 .f32) (h : FVec Ideal S8192x256 .f32) : aggS2 a h = agg (n := 8192) (k := 8192) (d := 256) a h :=
  plain_agg a h
theorem reluS2_eq (y : FVec Ideal S8192x256 .f32) : reluS2 y = relu (n := 8192) (d := 256) y :=
  max_zero_relu bcast_S_S8192x256 y
theorem linS3_eq (x : FVec Ideal S8192x256 .f32) (w : FVec Ideal S64x256 .f32) : linS3 x w = linT (n := 8192) (k := 256) (d := 64) x w :=
  plain_linT transposes_S64x256_S256x64_1_0 x w
theorem aggS3_eq (a : FVec Ideal S8192x8192 .f32) (h : FVec Ideal S8192x64 .f32) : aggS3 a h = agg (n := 8192) (k := 8192) (d := 64) a h :=
  plain_agg a h
-- Piece m of the concatenation along the columns holds columns 64·m … 64·m + 63.
theorem catS_eq (m1 m2 m3 : FVec Ideal S8192x64 .f32) : catS m1 m2 m3 = catCols (n := 8192) m1 m2 m3 := by
  refine ext_ix2 fun r j => ?_
  have piece := fun (m : ℕ) (hm : m < 3) (x : FVec Ideal S8192x64 .f32) hx (hp : _ = 64 * m) (c : Fin 64) (hc : 64 * m + c.val = j.val) =>
    concatenate_apply_piece (1 : Fin S8192x192.rank) [⟨S8192x64, m1⟩, ⟨S8192x64, m2⟩, ⟨S8192x64, m3⟩]
      concatenates_S8192x64_S8192x64_S8192x64_S8192x192_d1 (ix2 r j) m hm S8192x64 x hx rfl (64 * m) hp (ix2 r c)
      (fun b hb => by match b with | ⟨0, _⟩ => rfl | ⟨1, _⟩ => exact absurd (Fin.ext rfl) hb) hc
  by_cases h1 : j.val < 64
  · exact (piece 0 (by omega) m1 rfl rfl ⟨_, h1⟩ (by show 64 * 0 + j.val = _; omega)).trans (catCols_lo _ _ _ r j h1).symm
  · by_cases h2 : j.val < 128
    · exact (piece 1 (by omega) m2 rfl rfl ⟨j.val - 64, by omega⟩ (by show 64 * 1 + (j.val - 64) = _; omega)).trans
        (catCols_mid _ _ _ r j h1 h2).symm
    · exact (piece 2 (by omega) m3 rfl rfl ⟨j.val - 128, by have := j.isLt; omega⟩
        (by show 64 * 2 + (j.val - 128) = _; omega)).trans (catCols_hi _ _ _ r j h1 h2).symm
theorem linS4_eq (z : FVec Ideal S8192x192 .f32) (w : FVec Ideal S192x192 .f32) : linS4 z w = linT (n := 8192) (k := 192) (d := 192) z w :=
  plain_linT transposes_S192x192_S192x192_1_0 z w
def rowOf (b : FVec Ideal S192 .f32) : Mat 1 192 := fun i => b (ix1 (i 1))
-- The bias broadcast to a row and then down the rows reads, at (r, j), the vector at j.
theorem biasS4_eq (y : FVec Ideal S8192x192 .f32) (b : FVec Ideal S192 .f32) : biasS4 y b = addRow (n := 8192) (d := 192) y (rowOf b) :=
  funext fun i => congrArg (y i + ·) <|
    (broadcastInDim_apply (![0, 1] : Fin 2 → Fin S8192x192.rank) bcast_S1x192_S8192x192_0_1 _ i (ix2 (0 : Fin 1) (i 1))
      fun a => by match a with | ⟨0, _⟩ => rfl | ⟨1, _⟩ => rfl).trans
    (broadcastInDim_apply (![1] : Fin 1 → Fin S1x192.rank) bcast_S192_S1x192_1 b _ (ix1 (i 1))
      fun a => by match a with | ⟨0, _⟩ => rfl)
-- Selecting on the comparison with zero is the if-then-else on 0 ≤ y.
theorem leakyS4_eq (y : FVec Ideal S8192x192 .f32) : leakyS4 y = leakyGe (n := 8192) (d := 192) (Ideal.ofBits .f32 0x3DCCCCCD#32) y := by
  funext i
  unfold leakyS4 leakyGe
  rw [select_apply, cmpf_apply, mulf_apply, bcast_const, Ideal.ofBits_zero_f32, Ideal.cmpf_def,
    show broadcastInDim S8192x192 ![] bcast_S_S8192x192 (id (constant (F := Ideal) S_ .f32 0x3DCCCCCD#32)) i = _ from
      bcast_const bcast_S_S8192x192 _ i]
  show (if Ideal.cmp .oge (y i) 0 = 1 then y i else _) = _
  by_cases h : (0 : EReal) ≤ y i
  · rw [if_pos h, if_pos (by simp [Ideal.cmp, h])]
  · rw [if_neg h, if_neg (by simp [Ideal.cmp, h])]
theorem predS_eq (z tz : FVec Ideal S8192x192 .f32) : predS z tz = linT (n := 8192) (k := 192) (d := 8192) z tz :=
  plain_linT transposes_S8192x192_S192x8192_1_0 z tz

end Cert.ReferenceIdeal.Hand

end
-- ==== Proof.RefNet.lean ====
import proofs.«100585_j72756745994352_1_alg».proof.Proof.RefVal
import proofs.«100585_j72756745994352_1_alg».proof.Proof.Net

noncomputable section

namespace Cert.ReferenceIdeal.Hand

open Cert.ReferenceIdeal Idealize.ShloMosaic Cert.Spec

variable (m : (ℓ : Loc nD τ sig) → Buf (Elt Ideal) ℓ) (c : Dev nD)

theorem rX1_net : rX1 m c = netX1 (aAdj m c) (aX m c) (aW1 m c) := by
  unfold rX1 netX1; rw [reluS1_eq, aggS1_eq, linS1_eq]

theorem rX2_net : rX2 m c = netX2 (aAdj m c) (aX m c) (aW1 m c) (aW2 m c) := by
  unfold rX2 netX2; rw [reluS2_eq, aggS2_eq, linS2_eq, rX1_net]

theorem rZ_net : rZ m c = netZ (aAdj m c) (aX m c) (aW1 m c) (aW2 m c) (aWm1 m c) (aWm2 m c) (aWm3 m c) := by
  unfold rZ netZ; rw [catS_eq, aggS3_eq, aggS3_eq, aggS3_eq, linS3_eq, linS3_eq, linS3_eq, rX2_net]

theorem rPred_net : rPred m c
    = netPred (aAdj m c) (aX m c) (aW1 m c) (aW2 m c) (aWm1 m c) (aWm2 m c) (aWm3 m c) (aWt m c) (rowOf (aBt m c)) := by
  unfold rPred rTZ netPred netTZ; rw [predS_eq, leakyS4_eq, biasS4_eq, linS4_eq, rZ_net]; rfl

end Cert.ReferenceIdeal.Hand

end
-- ==== Proof.lean ====
import proofs.«100585_j72756745994352_1_alg».proof.Defs
import proofs.«100585_j72756745994352_1_alg».proof.Proof.Gen.Kernel
import proofs.«100585_j72756745994352_1_alg».proof.Proof.Gen.KernelIdeal
import proofs.«100585_j72756745994352_1_alg».proof.Proof.Gen.ReferenceIdeal
import proofs.«100585_j72756745994352_1_alg».proof.Proof.Gen.Pre_finite_inputs
import proofs.«100585_j72756745994352_1_alg».proof.Proof.KernelBits.Run
import proofs.«100585_j72756745994352_1_alg».proof.Proof.Run
import proofs.«100585_j72756745994352_1_alg».proof.Proof.KVal
import proofs.«100585_j72756745994352_1_alg».proof.Proof.RefRun
import proofs.«100585_j72756745994352_1_alg».proof.Proof.RefNet

noncomputable section

namespace Cert.Proof

open Idealize.ShloMosaic Idealize.SL.Sem Cert.Spec Cert.KernelIdeal.Hand Cert.ReferenceIdeal.Hand

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2.2.2) (run (F := Ideal) m ρ)

-- Both programs end with the network's values of the argument arrays, on which the two memories agree.
theorem algebraic : Cert.algebraic_KernelIdeal_ReferenceIdeal := by
  intro m ρ m' ρ' _ hagree
  refine ⟨fun c => netPred (kA m c) (kX m c) (kW1 m c) (kW2 m c) (kWm1 m c) (kWm2 m c) (kWm3 m c) (kWt m c) (kBt m c), fun c => sigm512 (F := Ideal) (netX1 (kA m c) (kX m c) (kW1 m c)),
    fun c => sigm256 (F := Ideal) (netX2 (kA m c) (kX m c) (kW1 m c) (kW2 m c)), fun c => netZ (kA m c) (kX m c) (kW1 m c) (kW2 m c) (kWm1 m c) (kWm2 m c) (kWm3 m c), ?_, ?_⟩
  · refine (θ_run Cert.KernelIdeal.defs _ _).mono (fun r h c => ?_) (run_all (F := Ideal) m ρ)
    have k := fun b hb => h c _ (mem_uc b hb)
    open Cert.KernelIdeal in
    exact ⟨(k main_v13 (by decide)).trans (out_pred m ρ c), (k main_v19 (by decide)).trans (out_s1 m ρ c),
      (k main_v25 (by decide)).trans (out_s2 m ρ c), (k main_v11 (by decide)).trans (out_z m ρ c),
      (k main_arg0 (by decide)).trans (W12_main_arg0 m ρ c),
      (k main_arg1 (by decide)).trans (W12_main_arg1 m ρ c),
      (k main_arg2 (by decide)).trans (W12_main_arg2 m ρ c),
      (k main_arg3 (by decide)).trans (W12_main_arg3 m ρ c),
      (k main_arg4 (by decide)).trans (W12_main_arg4 m ρ c),
      (k main_arg5 (by decide)).trans (W12_main_arg5 m ρ c),
      (k main_arg6 (by decide)).trans (W12_main_arg6 m ρ c),
      (k main_arg7 (by decide)).trans (W12_main_arg7 m ρ c),
      (k main_arg8 (by decide)).trans (W12_main_arg8 m ρ c)⟩
  · refine (θ_run Cert.ReferenceIdeal.defs _ _).mono (fun r h c => ?_) (run (F := Ideal) m' ρ')
    obtain ⟨h25, h31, h37, h17, hargs⟩ := h c
    obtain ⟨e0, e1, e2, e3, e4, e5, e6, e7, e8⟩ := hagree c
    refine ⟨h25.trans ?_, h31.trans ?_, h37.trans ?_, h17.trans ?_, hargs⟩ <;>
      simp only [rS1, rS2, rPred_net, rX1_net, rX2_net, rZ_net, e0, e1, e2, e3, e4, e5, e6, e7, e8] <;> rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
